-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x128 : Shape := ⟨2, ![32, 128]⟩
abbrev S128 : Shape := ⟨1, ![128]⟩
abbrev S128x128 : Shape := ⟨2, ![128, 128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x32 .f32) (main_arg1 : IVec S1600000 32) (main_arg2 : IVec S1600000 32) (main_arg3 : FVec F S32x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x32 : Shape := ⟨2, ![100000, 32]⟩
abbrev S1600000 : Shape := ⟨1, ![1600000]⟩
abbrev S32x128 : Shape := ⟨2, ![32, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x32 : Shape := ⟨2, ![1600000, 32]⟩
abbrev S1x128 : Shape := ⟨2, ![1, 128]⟩
abbrev S100000x128 : Shape := ⟨2, ![100000, 128]⟩
abbrev S5000x32 : Shape := ⟨2, ![5000, 32]⟩
abbrev S5000x128 : Shape := ⟨2, ![5000, 128]⟩

abbrev nBuf : Space → Nat
  | .hbm => 44
  | .vmem => 46
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S1x128, .f32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S100000x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S100000x128, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg7_0 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem7_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v50 : BitVec 1 := Scalar.cmpi .eq arg0 c19_i32
  let v51 : BitVec 32 := Scalar.extui v50
  let c0_i32_28 : BitVec 32 := 0#32
  let v52 : BitVec 1 := Scalar.cmpi .ne v51 c0_i32_28
  v52

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_23 : BitVec 32 := 0#32
  let v44 : BitVec 1 := Scalar.cmpi .ne v43 c0_i32_23
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v11_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v15_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v15_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15_2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v18_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v18_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v21) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x128 : Shape := ⟨2, ![32, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x32 : Shape := ⟨2, ![1600000, 32]⟩
abbrev S100000x128 : Shape := ⟨2, ![100000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x32, .f32⟩
  | 1 => ⟨S1600000, .i32⟩
  | 2 => ⟨S1600000, .i32⟩
  | 3 => ⟨S32x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x32, .f32⟩
  | 22 => ⟨S_, .f32⟩
  | 23 => ⟨S100000x32, .f32⟩
  | 24 => ⟨S1600000x1, .i32⟩
  | 25 => ⟨S100000x32, .f32⟩
  | 26 => ⟨S100000x32, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S128, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x32, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call2_cst : Ref sig .tc := ⟨.hbm, 131, rfl⟩
abbrev main_call2_v0 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.D0.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev in0_0 (c : Dev nD) (t : Fin cfg0.N) : Vec F S5000x32 .f32 := iblk0 V c 0 t

abbrev in0_1 (c : Dev nD) (t : Fin cfg0.N) : Vec F S5000x32 .f32 := iblk0 V c 1 t

abbrev in0_2 (c : Dev nD) (t : Fin cfg0.N) : Vec F S32x128 .f32 := iblk0 V c 2 t

abbrev in0_3 (c : Dev nD) (t : Fin cfg0.N) : Vec F S1x128 .f32 := iblk0 V c 3 t

def z0 (c : Dev nD) (t : Fin cfg0.N) : Vec F S5000x128 .f32 :=
  k0_pay5 (in0_0 V c t) (in0_1 V c t) (in0_2 V c t) (in0_3 V c t)

theorem pos0 : 0 < cfg0.N := by rw [show cfg0.N = 20 from N_0]; omega

def acc0 (c : Dev nD) : ℕ → Vec F S1x128 .f32 × Vec F S1x128 .f32
  | 0 => (k0_pay6 (in0_0 V c ⟨0, pos0⟩) (in0_1 V c ⟨0, pos0⟩) (in0_2 V c ⟨0, pos0⟩) (in0_3 V c ⟨0, pos0⟩) k0_pay3,
          k0_pay7 (in0_0 V c ⟨0, pos0⟩) (in0_1 V c ⟨0, pos0⟩) (in0_2 V c ⟨0, pos0⟩) (in0_3 V c ⟨0, pos0⟩) k0_pay4)
  | n + 1 =>
    if h : n + 1 < cfg0.N then
      (k0_pay6 (in0_0 V c ⟨n + 1, h⟩) (in0_1 V c ⟨n + 1, h⟩) (in0_2 V c ⟨n + 1, h⟩) (in0_3 V c ⟨n + 1, h⟩) (acc0 c n).1,
       k0_pay7 (in0_0 V c ⟨n + 1, h⟩) (in0_1 V c ⟨n + 1, h⟩) (in0_2 V c ⟨n + 1, h⟩) (in0_3 V c ⟨n + 1, h⟩) (acc0 c n).2)
    else acc0 c n

def mean0 (c : Dev nD) : Vec F S1x128 .f32 := k0_pay1 (acc0 V c 19).1
def var0 (c : Dev nD) : Vec F S1x128 .f32 := k0_pay2 (acc0 V c 19).1 (acc0 V c 19).2

abbrev scA0 : Memref sig .tc .vmem S1x128 .f32 := Memref.whole cc0_scratch0
abbrev scB0 : Memref sig .tc .vmem S1x128 .f32 := Memref.whole cc0_scratch1

def Phi0 (c : Dev nD) : ℕ → sProp 𝕄
  | 0 => Pipeline.ΦA spec0 c
  | n + 1 => iprop(iprop(owns (c : Thread nD τ) scA0 fullShare (acc0 V c n).1
      ∗ owns (c : Thread nD τ) scB0 fullShare (acc0 V c n).2
      ∗ Pipeline.scopedRestBut (Ix := Unit) (Name := ℕ) (U := UR sig nD τ) (Lvl := ℕ) (Val := Elt F) spec0 c [cc0_scratch0, cc0_scratch1])
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => z0 V c t
    | ⟨5, _⟩ => mean0 V c
    | ⟨6, _⟩ => var0 V c
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = z0 V c t := by dsimp only [dat0]
theorem after0_5 (c : Dev nD) (t : Fin cfg0.N) : (dat0 V c).after 5 t = mean0 V c := by dsimp only [dat0]
theorem after0_6 (c : Dev nD) (t : Fin cfg0.N) : (dat0 V c).after 6 t = var0 V c := by dsimp only [dat0]
theorem Phi_eq0 (c : Dev nD) (t : Fin (cfg0.N + 1)) : (dat0 V c).Φ t = Phi0 V c t.val := by dsimp only [dat0]

end Cert.Kernel.Hand

end
-- ==== Proof.K.D1.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev in1_0 (c : Dev nD) (t : Fin cfg1.N) : Vec F S5000x128 .f32 := iblk1 V c 0 t

abbrev in1_1 (c : Dev nD) (t : Fin cfg1.N) : Vec F S1x128 .f32 := iblk1 V c 1 t

abbrev in1_2 (c : Dev nD) (t : Fin cfg1.N) : Vec F S1x128 .f32 := iblk1 V c 2 t

abbrev in1_3 (c : Dev nD) (t : Fin cfg1.N) : Vec F S1x128 .f32 := iblk1 V c 3 t

abbrev in1_4 (c : Dev nD) (t : Fin cfg1.N) : Vec F S1x128 .f32 := iblk1 V c 4 t

abbrev in1_5 (c : Dev nD) (t : Fin cfg1.N) : Vec F S128x128 .f32 := iblk1 V c 5 t

abbrev in1_6 (c : Dev nD) (t : Fin cfg1.N) : Vec F S1x128 .f32 := iblk1 V c 6 t

def z1 (c : Dev nD) (t : Fin cfg1.N) : Vec F S5000x128 .f32 :=
  k1_pay7 (in1_0 V c t) (in1_1 V c t) (in1_2 V c t) (in1_3 V c t) (in1_4 V c t) (in1_5 V c t) (in1_6 V c t)

theorem pos1 : 0 < cfg1.N := by rw [show cfg1.N = 20 from N_1]; omega

def acc1 (c : Dev nD) : ℕ → Vec F S1x128 .f32 × Vec F S1x128 .f32
  | 0 => (k1_pay1 (z1 V c ⟨0, pos1⟩) k1_pay5,
          k1_pay2 (z1 V c ⟨0, pos1⟩) k1_pay6)
  | n + 1 =>
    if h : n + 1 < cfg1.N then
      (k1_pay1 (z1 V c ⟨n + 1, h⟩) (acc1 c n).1,
       k1_pay2 (z1 V c ⟨n + 1, h⟩) (acc1 c n).2)
    else acc1 c n

def mean1 (c : Dev nD) : Vec F S1x128 .f32 := k1_pay3 (acc1 V c 19).1
def var1 (c : Dev nD) : Vec F S1x128 .f32 := k1_pay4 (acc1 V c 19).1 (acc1 V c 19).2

abbrev scA1 : Memref sig .tc .vmem S1x128 .f32 := Memref.whole cc1_scratch0
abbrev scB1 : Memref sig .tc .vmem S1x128 .f32 := Memref.whole cc1_scratch1

def Phi1 (c : Dev nD) : ℕ → sProp 𝕄
  | 0 => Pipeline.ΦA spec1 c
  | n + 1 => iprop(iprop(owns (c : Thread nD τ) scA1 fullShare (acc1 V c n).1
      ∗ owns (c : Thread nD τ) scB1 fullShare (acc1 V c n).2
      ∗ Pipeline.scopedRestBut (Ix := Unit) (Name := ℕ) (U := UR sig nD τ) (Lvl := ℕ) (Val := Elt F) spec1 c [cc1_scratch0, cc1_scratch1])
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => z1 V c t
    | ⟨8, _⟩ => mean1 V c
    | ⟨9, _⟩ => var1 V c
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = z1 V c t := by dsimp only [dat1]
theorem after1_8 (c : Dev nD) (t : Fin cfg1.N) : (dat1 V c).after 8 t = mean1 V c := by dsimp only [dat1]
theorem after1_9 (c : Dev nD) (t : Fin cfg1.N) : (dat1 V c).after 9 t = var1 V c := by dsimp only [dat1]
theorem Phi_eq1 (c : Dev nD) (t : Fin (cfg1.N + 1)) : (dat1 V c).Φ t = Phi1 V c t.val := by dsimp only [dat1]

end Cert.Kernel.Hand

end
-- ==== Proof.K.D2.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev in2_0 (c : Dev nD) (t : Fin cfg2.N) : Vec F S5000x128 .f32 := iblk2 V c 0 t

abbrev in2_1 (c : Dev nD) (t : Fin cfg2.N) : Vec F S1x128 .f32 := iblk2 V c 1 t

abbrev in2_2 (c : Dev nD) (t : Fin cfg2.N) : Vec F S1x128 .f32 := iblk2 V c 2 t

abbrev in2_3 (c : Dev nD) (t : Fin cfg2.N) : Vec F S1x128 .f32 := iblk2 V c 3 t

abbrev in2_4 (c : Dev nD) (t : Fin cfg2.N) : Vec F S1x128 .f32 := iblk2 V c 4 t

def z2 (c : Dev nD) (t : Fin cfg2.N) : Vec F S5000x128 .f32 :=
  k2_pay6 (in2_0 V c t) (in2_1 V c t) (in2_2 V c t) (in2_3 V c t) (in2_4 V c t)

theorem pos2 : 0 < cfg2.N := by rw [show cfg2.N = 20 from N_2]; omega

def acc2 (c : Dev nD) : ℕ → Vec F S1x128 .f32 × Vec F S1x128 .f32
  | 0 => (k2_pay7 (in2_0 V c ⟨0, pos2⟩) (in2_1 V c ⟨0, pos2⟩) (in2_2 V c ⟨0, pos2⟩) (in2_3 V c ⟨0, pos2⟩) (in2_4 V c ⟨0, pos2⟩) k2_pay4,
          k2_pay1 (z2 V c ⟨0, pos2⟩) k2_pay5)
  | n + 1 =>
    if h : n + 1 < cfg2.N then
      (k2_pay7 (in2_0 V c ⟨n + 1, h⟩) (in2_1 V c ⟨n + 1, h⟩) (in2_2 V c ⟨n + 1, h⟩) (in2_3 V c ⟨n + 1, h⟩) (in2_4 V c ⟨n + 1, h⟩) (acc2 c n).1,
       k2_pay1 (z2 V c ⟨n + 1, h⟩) (acc2 c n).2)
    else acc2 c n

def mean2 (c : Dev nD) : Vec F S1x128 .f32 := k2_pay2 (acc2 V c 19).1
def var2 (c : Dev nD) : Vec F S1x128 .f32 := k2_pay3 (acc2 V c 19).1 (acc2 V c 19).2

abbrev scA2 : Memref sig .tc .vmem S1x128 .f32 := Memref.whole cc2_scratch0
abbrev scB2 : Memref sig .tc .vmem S1x128 .f32 := Memref.whole cc2_scratch1

def Phi2 (c : Dev nD) : ℕ → sProp 𝕄
  | 0 => Pipeline.ΦA spec2 c
  | n + 1 => iprop(iprop(owns (c : Thread nD τ) scA2 fullShare (acc2 V c n).1
      ∗ owns (c : Thread nD τ) scB2 fullShare (acc2 V c n).2
      ∗ Pipeline.scopedRestBut (Ix := Unit) (Name := ℕ) (U := UR sig nD τ) (Lvl := ℕ) (Val := Elt F) spec2 c [cc2_scratch0, cc2_scratch1])
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => z2 V c t
    | ⟨6, _⟩ => mean2 V c
    | ⟨7, _⟩ => var2 V c
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = z2 V c t := by dsimp only [dat2]
theorem after2_6 (c : Dev nD) (t : Fin cfg2.N) : (dat2 V c).after 6 t = mean2 V c := by dsimp only [dat2]
theorem after2_7 (c : Dev nD) (t : Fin cfg2.N) : (dat2 V c).after 7 t = var2 V c := by dsimp only [dat2]
theorem Phi_eq2 (c : Dev nD) (t : Fin (cfg2.N + 1)) : (dat2 V c).Φ t = Phi2 V c t.val := by dsimp only [dat2]

end Cert.Kernel.Hand

end
-- ==== Proof.K.D3.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev in3_0 (c : Dev nD) (t : Fin cfg3.N) : Vec F S5000x128 .f32 := iblk3 V c 0 t
abbrev in3_1 (c : Dev nD) (t : Fin cfg3.N) : Vec F S1x128 .f32 := iblk3 V c 1 t
abbrev in3_2 (c : Dev nD) (t : Fin cfg3.N) : Vec F S1x128 .f32 := iblk3 V c 2 t
abbrev in3_3 (c : Dev nD) (t : Fin cfg3.N) : Vec F S1x128 .f32 := iblk3 V c 3 t
abbrev in3_4 (c : Dev nD) (t : Fin cfg3.N) : Vec F S1x128 .f32 := iblk3 V c 4 t

def z3 (c : Dev nD) (t : Fin cfg3.N) : Vec F S5000x128 .f32 :=
  k3_pay1 (in3_0 V c t) (in3_1 V c t) (in3_2 V c t) (in3_3 V c t) (in3_4 V c t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => z3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = z3 V c t := by dsimp only [dat3]

end Cert.Kernel.Hand

end
-- ==== Proof.K.Fold.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import proofs.«108410_j49581102465153_1_alg».proof.Proof.K.D0
import proofs.«108410_j49581102465153_1_alg».proof.Proof.K.D1
import proofs.«108410_j49581102465153_1_alg».proof.Proof.K.D2
import proofs.«108410_j49581102465153_1_alg».proof.Proof.K.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w

end Cert.Kernel.Hand

end
-- ==== Proof.K.R0.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import proofs.«108410_j49581102465153_1_alg».proof.Proof.K.D0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

theorem hz_frame0 : (![0, 0] : Fin 2 → ℕ) = fun _ => 0 := funext fun a => by fin_cases a <;> rfl

-- Reading a buffer back after a store to all of it gives the stored value.
theorem read_writes_whole_last0 {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1500000 in
-- The kernel body in its three control cases: the first point starts the running sums from zero, the last also writes the means and variances.
theorem run0 (c : Dev nD) (i : grid0.Coords) (arg1 : Memref sig .tc .vmem S5000x32 .f32) (harg1 : arg1.IsWhole) (arg2 : Memref sig .tc .vmem S5000x32 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 x1 : Vec F S5000x32 .f32) (x2 : Vec F S32x128 .f32) (x3 xi5 xi6 s0 s1 a0 a1 o5 o6 : Vec F S1x128 .f32)
    (hcase : (cond0_0 i ∧ ¬cond0_1 i ∧ a0 = k0_pay3 ∧ a1 = k0_pay4 ∧ o5 = xi5 ∧ o6 = xi6)
      ∨ (¬cond0_0 i ∧ ¬cond0_1 i ∧ a0 = s0 ∧ a1 = s1 ∧ o5 = xi5 ∧ o6 = xi6)
      ∨ (¬cond0_0 i ∧ cond0_1 i ∧ a0 = s0 ∧ a1 = s1 ∧ o5 = k0_pay1 (k0_pay6 x0 x1 x2 x3 s0)
          ∧ o6 = k0_pay2 (k0_pay6 x0 x1 x2 x3 s0) (k0_pay7 x0 x1 x2 x3 s1)))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay5 x0 x1 x2 x3) ∗ owns (c : Thread nD τ) arg6 fullShare o5 ∗ owns (c : Thread nD τ) arg7 fullShare o6
            ∗ owns (c : Thread nD τ) arg8 fullShare (k0_pay6 x0 x1 x2 x3 a0) ∗ owns (c : Thread nD τ) arg9 fullShare (k0_pay7 x0 x1 x2 x3 a1)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  rcases hcase with ⟨hc0, hc1, rfl, rfl, rfl, rfl⟩ | ⟨hc0, hc1, rfl, rfl, rfl, rfl⟩ | ⟨hc0, hc1, rfl, rfl, rfl, rfl⟩ <;> (
    sl_exec (disch := first | exact hc0 | exact hc1)
    sl_step
    iapply Hk
    isplitl [H1]; · iexists _; iframe H1; ipureintro; exact harg1.read_unread _
    isplitl [H2]; · iexists _; iframe H2; ipureintro; exact harg2.read_unread _
    isplitl [H3]; · iexists _; iframe H3; ipureintro; exact harg3.read_unread _
    isplitl [H4]; · iexists _; iframe H4; ipureintro; exact harg4.read_unread _
    isplitl [H5]; iexists _; iframe H5; ipureintro; rotate_left
    isplitl [H6]; iexists _; iframe H6; ipureintro; rotate_left
    isplitl [H7]; iexists _; iframe H7; ipureintro; rotate_left
    isplitl [H8]; iexists _; iframe H8; ipureintro; rotate_left
    iexists _; iframe H9; ipureintro
    all_goals first
      | ((try sl_unfold_words); rw [read_writes_whole_last0 _ _ hz_frame0]; simp only [View.readAt_eq_ld, harg1.read_unread, harg2.read_unread, harg3.read_unread, harg4.read_unread, harg8.read_unread, harg9.read_unread, View.ld_unit_zero (S := S5000x32) hz_frame0, View.ld_unit_zero (S := S32x128) hz_frame0, View.ld_unit_zero (S := S1x128) hz_frame0, View.readCov_unit_zero (S := S1x128) _ hz_frame0])
      | assumption)

variable (V : (c : Dev nD) → (b : Ref sig .tc) → Buf (Elt F) ((c : Thread nD τ).loc b))

theorem liveAt0 : ∀ t : Fin cfg0.N, ∀ w : Fin cfg0.W, w.val < 5 → cfg0.idle w (grid0.coords t) = false := by decide +kernel
theorem offLast0 : ∀ t : Fin cfg0.N, ¬cond0_1 (grid0.coords t) → ∀ w : Fin cfg0.W, 5 ≤ w.val →
    cfg0.idle w (grid0.coords t) = true ∧ (cfg0.win w).flush t = false := by decide +kernel
theorem atLast0 : ∀ t : Fin cfg0.N, cond0_1 (grid0.coords t) → ∀ w : Fin cfg0.W, 5 ≤ w.val →
    cfg0.idle w (grid0.coords t) = false := by decide +kernel

abbrev ms0_0 (t : Fin cfg0.N) : Memref sig .tc .vmem S5000x32 .f32 := win0_0.stage (cfg0.slots t 0)
abbrev ms0_1 (t : Fin cfg0.N) : Memref sig .tc .vmem S5000x32 .f32 := win0_1.stage (cfg0.slots t 1)
abbrev ms0_2 (t : Fin cfg0.N) : Memref sig .tc .vmem S32x128 .f32 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S5000x128 .f32 := win0_4.stage (cfg0.slots t 4)
abbrev ms0_5 (t : Fin cfg0.N) : Memref sig .tc .vmem S1x128 .f32 := win0_5.stage (cfg0.slots t 5)
abbrev ms0_6 (t : Fin cfg0.N) : Memref sig .tc .vmem S1x128 .f32 := win0_6.stage (cfg0.slots t 6)

theorem before0 (c : Dev nD) : (∀ t d, (dat0 V c).before 0 t d = iblk0 V c 0 t) ∧ (∀ t d, (dat0 V c).before 1 t d = iblk0 V c 1 t)
    ∧ (∀ t d, (dat0 V c).before 2 t d = iblk0 V c 2 t) ∧ (∀ t d, (dat0 V c).before 3 t d = iblk0 V c 3 t) := by
  refine ⟨?_, ?_, ?_, ?_⟩ <;> exact fun t d =>
    ((dat0 V c).before_in_eq_fetched _ rfl (fun _ => rfl) (fun _ _ _ => rfl) (fun _ => rfl) t d).trans rfl

-- The running sums one step unfolded: over the stored zeros at the first point, over the point before's afterwards.
theorem acc0_first (c : Dev nD) (t : Fin cfg0.N) (h : t.val = 0) :
    acc0 V c t.val = (k0_pay6 (in0_0 V c t) (in0_1 V c t) (in0_2 V c t) (in0_3 V c t) k0_pay3, k0_pay7 (in0_0 V c t) (in0_1 V c t) (in0_2 V c t) (in0_3 V c t) k0_pay4) := by
  obtain ⟨n, hn⟩ := t
  obtain rfl : n = 0 := h
  rfl
theorem acc0_later (c : Dev nD) (t : Fin cfg0.N) (h : t.val ≠ 0) :
    acc0 V c t.val = (k0_pay6 (in0_0 V c t) (in0_1 V c t) (in0_2 V c t) (in0_3 V c t) (acc0 V c (t.val - 1)).1, k0_pay7 (in0_0 V c t) (in0_1 V c t) (in0_2 V c t) (in0_3 V c t) (acc0 V c (t.val - 1)).2) := by
  obtain ⟨n, hn⟩ := t
  cases n with
  | zero => exact absurd rfl h
  | succ n => exact (acc0.eq_2 V c n).trans (dif_pos hn)

theorem PhiA0_eq (c : Dev nD) :
    (Pipeline.ΦA spec0 c : sProp 𝕄)
      = iprop(iprop(iprop((∃ d, owns (c : Thread nD τ) scA0 fullShare d) ∗ (∃ d, owns (c : Thread nD τ) scB0 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scA0, scB0, owns_whole]; try rfl

theorem Phi0_succ (c : Dev nD) (n : ℕ) :
    Phi0 V c (n + 1) = iprop(iprop(owns (c : Thread nD τ) scA0 fullShare (acc0 V c n).1
      ∗ owns (c : Thread nD τ) scB0 fullShare (acc0 V c n).2
      ∗ Pipeline.scopedRestBut (Ix := Unit) (Name := ℕ) (U := UR sig nD τ) (Lvl := ℕ) (Val := Elt F) spec0 c [cc0_scratch0, cc0_scratch1])
      ∗ (∃ r, prngReg c r)) := rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

theorem leaves_live0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

-- The body at any point: first, last or neither picks the case; the running sums pass through the invariant.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0 V c).1, (before0 V c).2.1, (before0 V c).2.2.1, (before0 V c).2.2.2]
  rw [show (dat0 V c).owesAt () t.succ = (dat0 V c).owesAt () t.castSucc from rfl, Phi_eq0, Phi_eq0]
  simp only [Fin.coe_castSucc, Fin.val_succ]
  rw [Phi0_succ, leaves_live0 V c 0 t (liveAt0 t 0 (by decide)), leaves_live0 V c 1 t (liveAt0 t 1 (by decide)),
    leaves_live0 V c 2 t (liveAt0 t 2 (by decide)), leaves_live0 V c 3 t (liveAt0 t 3 (by decide)),
    leaves_live0 V c 4 t (liveAt0 t 4 (by decide))]
  simp only [after0_0, after0_1, after0_2, after0_3, after0_4]
  unfold z0
  have hN : t.val < 20 := lt_of_lt_of_eq t.isLt (show cfg0.N = 20 from N_0)
  by_cases h0 : t.val = 0
  on_goal 2 => by_cases h1 : t.val = 19
  on_goal 1 =>
    have hc0 : cond0_0 (grid0.coords t) := (hcond0_0 t).mpr h0
    have hc1 : ¬cond0_1 (grid0.coords t) := fun h => by have := (hcond0_1 t).mp h; omega
    rw [acc0_first V c t h0, show Phi0 V c t.val = Pipeline.ΦA spec0 c from by rw [h0]; rfl, PhiA0_eq]
    iintro ⟨⟨⟨⟨⟨%sA, HA⟩, ⟨%sB, HB⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0 c (grid0.coords t) _ _ _ _ _ _ _ _ _ _ _ _ _ _ _ _ _ _ (in0_0 V c t) (in0_1 V c t) (in0_2 V c t) (in0_3 V c t) ((dat0 V c).before 5 t d5) ((dat0 V c).before 6 t d6) sA sB _ _ _ _ (Or.inl ⟨hc0, hc1, rfl, rfl, rfl, rfl⟩) Set.univ _)
  on_goal 2 =>
    have hc0 : ¬cond0_0 (grid0.coords t) := fun h => h0 ((hcond0_0 t).mp h)
    have hc1 : cond0_1 (grid0.coords t) := (hcond0_1 t).mpr h1
    rw [acc0_later V c t h0, show Phi0 V c t.val = Phi0 V c (t.val - 1 + 1) from by congr 1; omega, Phi0_succ]
    iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0 c (grid0.coords t) _ _ _ _ _ _ _ _ _ _ _ _ _ _ _ _ _ _ (in0_0 V c t) (in0_1 V c t) (in0_2 V c t) (in0_3 V c t) ((dat0 V c).before 5 t d5) ((dat0 V c).before 6 t d6) (acc0 V c (t.val - 1)).1 (acc0 V c (t.val - 1)).2 _ _ _ _ (Or.inr <| Or.inr ⟨hc0, hc1, rfl, rfl, rfl, rfl⟩) Set.univ _)
  on_goal 3 =>
    have hc0 : ¬cond0_0 (grid0.coords t) := fun h => h0 ((hcond0_0 t).mp h)
    have hc1 : ¬cond0_1 (grid0.coords t) := fun h => h1 ((hcond0_1 t).mp h)
    rw [acc0_later V c t h0, show Phi0 V c t.val = Phi0 V c (t.val - 1 + 1) from by congr 1; omega, Phi0_succ]
    iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0 c (grid0.coords t) _ _ _ _ _ _ _ _ _ _ _ _ _ _ _ _ _ _ (in0_0 V c t) (in0_1 V c t) (in0_2 V c t) (in0_3 V c t) ((dat0 V c).before 5 t d5) ((dat0 V c).before 6 t d6) (acc0 V c (t.val - 1)).1 (acc0 V c (t.val - 1)).2 _ _ _ _ (Or.inr <| Or.inl ⟨hc0, hc1, rfl, rfl, rfl, rfl⟩) Set.univ _)
  all_goals
    iframe H0 H1 H2 H3 H5 H6 HA HB
    isplitl [H4]; · iexists _; iexact H4
    iintro ⟨H0, H1, H2, H3, H4, H5, H6, HA, HB⟩
    iframe HA HB HR Hg Ho H0 H1 H2 H3 H4
  on_goal 2 =>
    rw [leaves_live0 V c 5 t (atLast0 t hc1 5 (by decide)), leaves_live0 V c 6 t (atLast0 t hc1 6 (by decide)), after0_5, after0_6]
    unfold mean0 var0
    rw [show acc0 V c 19 = acc0 V c t.val from by rw [h1], acc0_later V c t h0]
    iframe H5 H6
  all_goals
    rw [Dat.leavesExact_idle (dat0 V c) 5 t (offLast0 t hc1 5 (by decide)).1 (offLast0 t hc1 5 (by decide)).2,
      Dat.leavesExact_idle (dat0 V c) 6 t (offLast0 t hc1 6 (by decide)).1 (offLast0 t hc1 6 (by decide)).2]
    isplitl [H5]; · iexists _; iexact H5
    iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [Phi_eq0]; exact .rfl

theorem hout0 (c : Dev nD) : (dat0 V c).Φ (Fin.last cfg0.N) ⊢ (Pipeline.ΦA spec0 c : sProp 𝕄) := by
  rw [Phi_eq0, show (Fin.last cfg0.N).val = 19 + 1 from by rw [Fin.val_last]; exact N_0, Phi0_succ, PhiA0_eq]
  iintro ⟨⟨HA, HB, HR⟩, Hg⟩
  iframe HR Hg
  isplitl [HA] <;> iexists _ <;> iassumption

end Cert.Kernel.Hand

end
-- ==== Proof.K.R1.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import proofs.«108410_j49581102465153_1_alg».proof.Proof.K.D1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

theorem hz_frame1 : (![0, 0] : Fin 2 → Nat) = fun _ => 0 := funext fun a => by fin_cases a <;> rfl

theorem read_writes_whole_last1 {S : Shape} (m : Memref sig .tc .vmem S .f32) (f : m.view.ty.Contents (Elt F))
    {off : Fin S.rank → Nat} (h : off = fun _ => 0) (inb : ∀ a, off a + S.size a ≤ S.size a) (w : S.Idx → Elt F .f32)
    (L : List (View.Piece (Elt F) S .f32)) :
    m.view.read (Elt F) (m.view.writes (Elt F) f ((⟨Rect.unit off S.size inb, w⟩ : View.Piece (Elt F) S .f32) :: L)) = w := by
  rw [View.read_writes_eq_canon _ _ _ (fun y => ⟨_, List.mem_cons_self, View.mem_set_unit_zero h inb y⟩),
    View.canon_cons_unit_zero h]

theorem readAt_whole1 {S : Shape} (m : Memref sig .tc .vmem S .f32) (hm : m.IsWhole)
    {off : Fin S.rank → Nat} (h : off = fun _ => 0) (inb : ∀ a, off a + S.size a ≤ S.size a) (X : S.Idx → Elt F .f32) :
    View.readAt (Elt F) m.view (Rect.unit off S.size inb).toLoadRect (hm.unread X) = X := by
  rw [View.readAt_eq_ld, hm.read_unread, View.ld_unit_zero h]

section
variable (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
  (x0 : Vec F S5000x128 .f32) (x1 x2 x3 x4 : Vec F S1x128 .f32) (x5 : Vec F S128x128 .f32) (x6 : Vec F S1x128 .f32)

set_option maxHeartbeats 1500000 in
-- One statement for every point: what each conditional changes is an `if` on its condition in what is left.
theorem run1 (hx : cond1_0 i → ¬cond1_1 i) (y7 : Vec F S5000x128 .f32) (y8 y9 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare y7 ∗ owns (c : Thread nD τ) arg9 fullShare y8 ∗ owns (c : Thread nD τ) arg10 fullShare y9 ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay7 x0 x1 x2 x3 x4 x5 x6) ∗ owns (c : Thread nD τ) arg9 fullShare (if cond1_1 i then k1_pay3 (k1_pay1 (k1_pay7 x0 x1 x2 x3 x4 x5 x6) (if cond1_0 i then k1_pay5 else s0)) else y8) ∗ owns (c : Thread nD τ) arg10 fullShare (if cond1_1 i then k1_pay4 (k1_pay1 (k1_pay7 x0 x1 x2 x3 x4 x5 x6) (if cond1_0 i then k1_pay5 else s0)) (k1_pay2 (k1_pay7 x0 x1 x2 x3 x4 x5 x6) (if cond1_0 i then k1_pay6 else s1)) else y9) ∗ owns (c : Thread nD τ) arg11 fullShare (k1_pay1 (k1_pay7 x0 x1 x2 x3 x4 x5 x6) (if cond1_0 i then k1_pay5 else s0)) ∗ owns (c : Thread nD τ) arg12 fullShare (k1_pay2 (k1_pay7 x0 x1 x2 x3 x4 x5 x6) (if cond1_0 i then k1_pay6 else s1))) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10 arg11 harg11 arg12 harg12) K := by
  by_cases hc0 : cond1_0 i <;> by_cases hc1 : cond1_1 i
  · exact absurd hc1 (hx hc0)
  all_goals
    first | rw [if_pos hc0, if_pos hc0] | rw [if_neg hc0, if_neg hc0]
    first | rw [if_pos hc1, if_pos hc1] | rw [if_neg hc1, if_neg hc1]
    simp only [cc1__bn_relu_linear_stats_kernel_eq_skeleton]; unfold cc1__bn_relu_linear_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9; obtain rfl := harg11.eq_unread hfs0; obtain rfl := harg12.eq_unread hfs1
    sl_exec (disch := first | exact hc0 | exact hc1)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    isplitl [H5]; iexists _; isplitr; swap; iexact H5; ipureintro; rotate_left
    isplitl [H6]; iexists _; isplitr; swap; iexact H6; ipureintro; rotate_left
    isplitl [H7]; iexists _; isplitr; swap; iexact H7; ipureintro; rotate_left
    isplitl [H8]; iexists _; isplitr; swap; iexact H8; ipureintro; rotate_left
    isplitl [H9]; iexists _; isplitr; swap; iexact H9; ipureintro; rotate_left
    isplitl [HS0]; iexists _; isplitr; swap; iexact HS0; ipureintro; rotate_left
    iexists _; isplitr; swap; iexact HS1; ipureintro
    all_goals first
      | rw [Memref.IsWhole.read_unread]
      | (try sl_unfold_run_names
         refine (read_writes_whole_last1 _ _ hz_frame1 _ _ _).trans ?_
         simp only [readAt_whole1 arg1 harg1 hz_frame1, readAt_whole1 arg2 harg2 hz_frame1, readAt_whole1 arg3 harg3 hz_frame1, readAt_whole1 arg4 harg4 hz_frame1, readAt_whole1 arg5 harg5 hz_frame1, readAt_whole1 arg6 harg6 hz_frame1, readAt_whole1 arg7 harg7 hz_frame1, readAt_whole1 arg11 harg11 hz_frame1, readAt_whole1 arg12 harg12 hz_frame1, View.readCov_unit_zero (S := S1x128) _ hz_frame1])

end
variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl

theorem idleAt1 : ∀ (w : Fin cfg1.W) (t : Fin cfg1.N), 8 ≤ w.val → t.val ≠ 19 →
    cfg1.idle w (grid1.coords t) = true ∧ (cfg1.win w).flush t = false := by decide +kernel
theorem liveAt1 : ∀ (w : Fin cfg1.W) (t : Fin cfg1.N), t.val = 19 → cfg1.idle w (grid1.coords t) = false := by decide +kernel

theorem leaves1_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

theorem PhiA1_eq (c : Dev nD) :
    (Pipeline.ΦA spec1 c : sProp 𝕄)
      = iprop(iprop(iprop((∃ d, owns (c : Thread nD τ) scA1 fullShare d) ∗ (∃ d, owns (c : Thread nD τ) scB1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scA1, scB1, owns_whole]; try rfl

theorem Phi1_later (c : Dev nD) (n : ℕ) (hz : n ≠ 0) :
    Phi1 V c n = iprop(iprop(owns (c : Thread nD τ) scA1 fullShare (acc1 V c (n - 1)).1
      ∗ owns (c : Thread nD τ) scB1 fullShare (acc1 V c (n - 1)).2
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

theorem acc1_first (c : Dev nD) (t : Fin cfg1.N) (hz : t.val = 0) :
    acc1 V c t.val = (k1_pay1 (z1 V c t) k1_pay5, k1_pay2 (z1 V c t) k1_pay6) := by
  obtain ⟨n, hn⟩ := t
  cases n with
  | zero => rfl
  | succ n => exact absurd hz (Nat.succ_ne_zero n)

theorem acc1_later (c : Dev nD) (t : Fin cfg1.N) (hz : t.val ≠ 0) :
    acc1 V c t.val = (k1_pay1 (z1 V c t) (acc1 V c (t.val - 1)).1, k1_pay2 (z1 V c t) (acc1 V c (t.val - 1)).2) := by
  obtain ⟨n, hn⟩ := t
  cases n with
  | zero => exact absurd rfl hz
  | succ n => exact (acc1.eq_2 V c n).trans (dif_pos hn)

abbrev finds1 (c : Dev nD) (t : Fin cfg1.N) (w : Fin cfg1.W) : sProp 𝕄 :=
  iprop(∃ d, owns (c : Thread nD τ) ((cfg1.win w).stage (cfg1.slots t w)) fullShare ((dat1 V c).before w t d))

abbrev keeps1 (c : Dev nD) (t : Fin cfg1.N) (w : Fin cfg1.W) : sProp 𝕄 :=
  owns (c : Thread nD τ) ((cfg1.win w).stage (cfg1.slots t w)) fullShare ((dat1 V c).after w t)

def bodyPre1 (c : Dev nD) (t : Fin cfg1.N) : sProp 𝕄 :=
  iprop((dat1 V c).Φ t.castSucc ∗ (dat1 V c).owesAt () t.castSucc
    ∗ finds1 V c t 0 ∗ finds1 V c t 1 ∗ finds1 V c t 2 ∗ finds1 V c t 3 ∗ finds1 V c t 4 ∗ finds1 V c t 5 ∗ finds1 V c t 6 ∗ finds1 V c t 7 ∗ finds1 V c t 8 ∗ finds1 V c t 9)

def bodyPost1 (c : Dev nD) (t : Fin cfg1.N) : sProp 𝕄 :=
  iprop((dat1 V c).Φ t.succ ∗ (dat1 V c).owesAt () t.succ
    ∗ keeps1 V c t 0 ∗ keeps1 V c t 1 ∗ keeps1 V c t 2 ∗ keeps1 V c t 3 ∗ keeps1 V c t 4 ∗ keeps1 V c t 5 ∗ keeps1 V c t 6 ∗ keeps1 V c t 7
    ∗ (dat1 V c).leavesExact 8 t ∗ (dat1 V c).leavesExact 9 t)

-- By cases on the point (last, first, neither), each an instance of run1 with both conditions decided.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1 finds1 keeps1
  simp only [before1_0, before1_1, before1_2, before1_3, before1_4, before1_5, before1_6, after1_0, after1_1, after1_2, after1_3, after1_4, after1_5, after1_6, after1_7]
  rw [show (dat1 V c).owesAt () t.succ = (dat1 V c).owesAt () t.castSucc from rfl,
    show (dat1 V c).Φ t.succ = Phi1 V c (t.val + 1) from rfl, Phi1_later V c _ (Nat.succ_ne_zero _), Nat.succ_sub_one,
    show (dat1 V c).Φ t.castSucc = Phi1 V c t.val from rfl]
  unfold z1
  have R := run1 (F := F) c (grid1.coords t) (st1_0 t) (stage_whole1 0 _) (st1_1 t) (stage_whole1 1 _) (st1_2 t) (stage_whole1 2 _) (st1_3 t) (stage_whole1 3 _) (st1_4 t) (stage_whole1 4 _) (st1_5 t) (stage_whole1 5 _) (st1_6 t) (stage_whole1 6 _) (st1_7 t) (stage_whole1 7 _) (st1_8 t) (stage_whole1 8 _) (st1_9 t) (stage_whole1 9 _) scA1 (Memref.isWhole_whole _) scB1 (Memref.isWhole_whole _) (in1_0 V c t) (in1_1 V c t) (in1_2 V c t) (in1_3 V c t) (in1_4 V c t) (in1_5 V c t) (in1_6 V c t)
    (fun a b => by have := (hcond1_0 t).mp a; have := (hcond1_1 t).mp b; omega)
  by_cases h1 : t.val = 19
  · have h0 : t.val ≠ 0 := by omega
    have hc0 : ¬cond1_0 (grid1.coords t) := fun h => h0 ((hcond1_0 t).mp h)
    have hc1 := (hcond1_1 t).mpr h1
    rw [leaves1_live V c 8 t (liveAt1 8 t h1), leaves1_live V c 9 t (liveAt1 9 t h1), after1_8, after1_9]
    unfold mean1 var1
    rw [show acc1 V c 19 = acc1 V c t.val from by rw [h1], acc1_later V c t h0, Phi1_later V c t.val h0]; unfold z1; dsimp only
    iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have R := R ((dat1 V c).before 7 t d7) ((dat1 V c).before 8 t d8) ((dat1 V c).before 9 t d9) (acc1 V c (t.val - 1)).1 (acc1 V c (t.val - 1)).2 Set.univ
    simp only [if_neg hc0, if_pos hc1] at R
    iapply R
    iframe H0 H1 H2 H3 H4 H5 H6 H7 H8 H9 HA HB
    iintro ⟨H0, H1, H2, H3, H4, H5, H6, H7, H8, H9, HA, HB⟩
    iframe
  · have hc1 : ¬cond1_1 (grid1.coords t) := fun h => h1 ((hcond1_1 t).mp h)
    rw [Dat.leavesExact_idle (dat1 V c) 8 t (idleAt1 8 t (by decide) h1).1 (idleAt1 8 t (by decide) h1).2,
      Dat.leavesExact_idle (dat1 V c) 9 t (idleAt1 9 t (by decide) h1).1 (idleAt1 9 t (by decide) h1).2]
    by_cases h0 : t.val = 0
    · have hc0 := (hcond1_0 t).mpr h0
      rw [acc1_first V c t h0, show Phi1 V c t.val = Pipeline.ΦA spec1 c from by rw [h0]; rfl, PhiA1_eq]; unfold z1; dsimp only
      iintro ⟨⟨⟨⟨⟨%a, HA⟩, ⟨%b, HB⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have R := R ((dat1 V c).before 7 t d7) ((dat1 V c).before 8 t d8) ((dat1 V c).before 9 t d9) a b Set.univ
      simp only [if_pos hc0, if_neg hc1] at R
      iapply R
      iframe H0 H1 H2 H3 H4 H5 H6 H7 H8 H9 HA HB
      iintro ⟨H0, H1, H2, H3, H4, H5, H6, H7, H8, H9, HA, HB⟩
      iframe HA HB HR Hg Ho H0 H1 H2 H3 H4 H5 H6 H7
      isplitl [H8] <;> iexists _
      · iexact H8
      · iexact H9
    · have hc0 : ¬cond1_0 (grid1.coords t) := fun h => h0 ((hcond1_0 t).mp h)
      rw [acc1_later V c t h0, Phi1_later V c t.val h0]; unfold z1; dsimp only
      iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have R := R ((dat1 V c).before 7 t d7) ((dat1 V c).before 8 t d8) ((dat1 V c).before 9 t d9) (acc1 V c (t.val - 1)).1 (acc1 V c (t.val - 1)).2 Set.univ
      simp only [if_neg hc0, if_neg hc1] at R
      iapply R
      iframe H0 H1 H2 H3 H4 H5 H6 H7 H8 H9 HA HB
      iintro ⟨H0, H1, H2, H3, H4, H5, H6, H7, H8, H9, HA, HB⟩
      iframe HA HB HR Hg Ho H0 H1 H2 H3 H4 H5 H6 H7
      isplitl [H8] <;> iexists _
      · iexact H8
      · iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [Phi_eq1]; exact .rfl

theorem hout1 (c : Dev nD) : (dat1 V c).Φ (Fin.last cfg1.N) ⊢ (Pipeline.ΦA spec1 c : sProp 𝕄) := by
  rw [Phi_eq1, Phi1_later V c _ (by rw [Fin.val_last]; have : cfg1.N = 20 := N_1; omega), PhiA1_eq]
  iintro ⟨⟨HA, HB, HR⟩, Hg⟩
  iframe HR Hg
  isplitl [HA] <;> iexists _
  · iexact HA
  · iexact HB

end Cert.Kernel.Hand

end
-- ==== Proof.K.R2.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import proofs.«108410_j49581102465153_1_alg».proof.Proof.K.D2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r2_hz : (![0, 0] : Fin 2 → Nat) = fun _ => 0 := funext fun a => by fin_cases a <;> rfl

theorem r2_read_last {S : Shape} (v : View sig .tc .vmem S .f32) (f : v.ty.Contents (Elt F)) {off : Fin S.rank → Nat}
    (h : off = fun _ => 0) (inb : ∀ a, off a + S.size a ≤ S.size a) (w : S.Idx → Elt F .f32)
    (L : List (View.Piece (Elt F) S .f32)) :
    v.read (Elt F) (v.writes (Elt F) f ((⟨Rect.unit off S.size inb, w⟩ : View.Piece (Elt F) S .f32) :: L)) = w :=
  (View.read_writes_eq_canon v f _ (fun y => ⟨_, List.mem_cons_self, View.mem_set_unit_zero h inb y⟩)).trans
    (View.canon_cons_unit_zero h inb w L)

abbrev r2_cond0 (i : grid2.Coords) : Prop := (Scalar.cmpi .ne (Scalar.extui (Scalar.cmpi .eq (BitVec.ofNat 32 (i 0).val) 0#32)) 0#32) = 1#1
theorem r2_hcond0 : ∀ t : Fin cfg2.N, r2_cond0 (grid2.coords t) ↔ t.val = 0 :=
  (by decide +kernel : ∀ t : Fin grid2.N, r2_cond0 (grid2.coords t) ↔ t.val = 0)
abbrev r2_cond1 (i : grid2.Coords) : Prop := k2_cond2 i = 1#1
theorem r2_hcond1 : ∀ t : Fin cfg2.N, r2_cond1 (grid2.coords t) ↔ t.val = 19 :=
  (by decide +kernel : ∀ t : Fin grid2.N, r2_cond1 (grid2.coords t) ↔ t.val = 19)

set_option maxHeartbeats 1500000 in
-- One run of the body for all control cases: a buffer a conditional stores into ends at the stored value where the condition holds and at the value found otherwise.
theorem r2_run (c : Dev nD) (i : grid2.Coords) {arg1 : Memref sig .tc .vmem S5000x128 .f32} {harg1 : arg1.IsWhole} {arg2 : Memref sig .tc .vmem S1x128 .f32} {harg2 : arg2.IsWhole} {arg3 : Memref sig .tc .vmem S1x128 .f32} {harg3 : arg3.IsWhole} {arg4 : Memref sig .tc .vmem S1x128 .f32} {harg4 : arg4.IsWhole} {arg5 : Memref sig .tc .vmem S1x128 .f32} {harg5 : arg5.IsWhole} {arg6 : Memref sig .tc .vmem S5000x128 .f32} {harg6 : arg6.IsWhole} {arg7 : Memref sig .tc .vmem S1x128 .f32} {harg7 : arg7.IsWhole} {arg8 : Memref sig .tc .vmem S1x128 .f32} {harg8 : arg8.IsWhole} {arg9 : Memref sig .tc .vmem S1x128 .f32} {harg9 : arg9.IsWhole} {arg10 : Memref sig .tc .vmem S1x128 .f32} {harg10 : arg10.IsWhole}
    (h01 : r2_cond0 i → ¬r2_cond1 i) (x0 : Vec F S5000x128 .f32) (x1 x2 x3 x4 : Vec F S1x128 .f32) (d6 : Vec F S5000x128 .f32) (d7 d8 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare d8 ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay6 x0 x1 x2 x3 x4)
            ∗ owns (c : Thread nD τ) arg7 fullShare (if r2_cond1 i then k2_pay2 (k2_pay7 x0 x1 x2 x3 x4 (if r2_cond0 i then k2_pay4 else s0)) else d7)
            ∗ owns (c : Thread nD τ) arg8 fullShare (if r2_cond1 i then k2_pay3 (k2_pay7 x0 x1 x2 x3 x4 (if r2_cond0 i then k2_pay4 else s0)) (k2_pay1 (k2_pay6 x0 x1 x2 x3 x4) (if r2_cond0 i then k2_pay5 else s1)) else d8)
            ∗ owns (c : Thread nD τ) arg9 fullShare (k2_pay7 x0 x1 x2 x3 x4 (if r2_cond0 i then k2_pay4 else s0)) ∗ owns (c : Thread nD τ) arg10 fullShare (k2_pay1 (k2_pay6 x0 x1 x2 x3 x4) (if r2_cond0 i then k2_pay5 else s1))) -∗ K ⟨⟩))
      ⊢ wp frame (wpE (defs₀ (F := F)) Variants.none c none) E (cc2__bn_relu_stats_kernel i arg1 harg1 arg2 harg2 arg3 harg3 arg4 harg4 arg5 harg5 arg6 harg6 arg7 harg7 arg8 harg8 arg9 harg9 arg10 harg10) K := by
  by_cases hc0 : r2_cond0 i <;> by_cases hc1 : r2_cond1 i <;> first | exact absurd hc1 (h01 hc0) | skip
  all_goals
    (first | rw [if_pos hc0, if_pos hc0] | rw [if_neg hc0, if_neg hc0]); (first | rw [if_pos hc1, if_pos hc1] | rw [if_neg hc1, if_neg hc1])
    simp only [cc2__bn_relu_stats_kernel_eq_skeleton]; unfold cc2__bn_relu_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    isplitl [H5]; iexists _; isplitr; swap; iexact H5; ipureintro; rotate_left
    isplitl [H6]; iexists _; isplitr; swap; iexact H6; ipureintro; rotate_left
    isplitl [H7]; iexists _; isplitr; swap; iexact H7; ipureintro; rotate_left
    isplitl [H8]; iexists _; isplitr; swap; iexact H8; ipureintro; rotate_left
    isplitl [H9]; iexists _; isplitr; swap; iexact H9; ipureintro; rotate_left
    iexists _; isplitr; swap; iexact H10; ipureintro; rotate_left
    iterate 5 exact Memref.IsWhole.read_unread _ _
    all_goals
      (try sl_unfold_words)
      first | (refine (r2_read_last _ _ r2_hz _ _ _).trans ?_; simp only [View.readCov_cons_toLoadRect, View.readCov_unit_zero (S := S1x128) _ r2_hz, View.readAt_eq_ld, harg1.read_unread, harg2.read_unread, harg3.read_unread, harg4.read_unread, harg5.read_unread, harg7.read_unread, harg8.read_unread, harg9.read_unread, harg10.read_unread, View.ld_unit_zero (S := S5000x128) r2_hz, View.ld_unit_zero (S := S1x128) r2_hz]) | exact Memref.IsWhole.read_unread _ _

theorem r2_before (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> exact fun d =>
    ((dat2 V c).before_in_eq_fetched _ rfl (fun _ => rfl) (fun _ _ _ => rfl)
      (fun t => by simp only [after2_0, after2_1, after2_2, after2_3, after2_4]; unfold Dat.blockOf iblk2; rw [A_eq2]; try rfl) t d).trans
      (by unfold Dat.fetched Dat.blockOf iblk2; rw [A_eq2]; try rfl)

theorem r2_live : ∀ (t : Fin cfg2.N) (w : Fin cfg2.W), w.val < 6 ∨ r2_cond1 (grid2.coords t) → cfg2.idle w (grid2.coords t) = false := by decide +kernel
theorem r2_idle : ∀ (t : Fin cfg2.N) (w : Fin cfg2.W), 6 ≤ w.val → ¬r2_cond1 (grid2.coords t) → cfg2.idle w (grid2.coords t) = true ∧ (cfg2.win w).flush t = false := by decide +kernel

theorem r2_leaves (c : Dev nD) (t : Fin cfg2.N) (w : Fin cfg2.W) (h : cfg2.idle w (grid2.coords t) = false) :
    (dat2 V c).leavesExact w t = owns (c : Thread nD τ) ((cfg2.win w).stage (cfg2.slots t w)) fullShare ((dat2 V c).after w t) := by
  unfold Dat.leavesExact; rw [h]

-- A small output is left at its final value at the last point and as found elsewhere.
theorem r2_leaves_small (c : Dev nD) (t : Fin cfg2.N) (w : Fin cfg2.W) (hw : 6 ≤ w.val) (d X) (hX : r2_cond1 (grid2.coords t) → X = (dat2 V c).after w t) :
    owns (c : Thread nD τ) ((cfg2.win w).stage (cfg2.slots t w)) fullShare (if r2_cond1 (grid2.coords t) then X else (dat2 V c).before w t d) ⊢ (dat2 V c).leavesExact w t := by
  by_cases h : r2_cond1 (grid2.coords t)
  · rw [if_pos h, hX h, r2_leaves V c t w (r2_live t w (.inr h))]
  · rw [if_neg h, Dat.leavesExact_idle _ w t (r2_idle t w hw h).1 (r2_idle t w hw h).2]
    iintro H; iexists _; iexact H

theorem r2_PhiA_eq (c : Dev nD) :
    (Pipeline.ΦA spec2 c : sProp 𝕄)
      = iprop(iprop(iprop((∃ d, owns (c : Thread nD τ) scA2 fullShare d) ∗ (∃ d, owns (c : Thread nD τ) scB2 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scA2, scB2, owns_whole]; try rfl

-- Before any point the accumulators are owned at some pair, which past the first point is the running sums so far.
theorem r2_Phi_open (c : Dev nD) (n : ℕ) :
    Phi2 V c n ⊢ iprop(∃ s : Vec F S1x128 .f32 × Vec F S1x128 .f32, ⌜n ≠ 0 → s = acc2 V c (n - 1)⌝ ∗ owns (c : Thread nD τ) scA2 fullShare s.1 ∗ owns (c : Thread nD τ) scB2 fullShare s.2
      ∗ Pipeline.scopedRestBut (Ix := Unit) (Name := ℕ) (U := UR sig nD τ) (Lvl := ℕ) (Val := Elt F) spec2 c [cc2_scratch0, cc2_scratch1] ∗ (∃ r, prngReg c r)) := by
  cases n with
  | zero =>
    rw [show Phi2 V c 0 = _ from r2_PhiA_eq c]
    iintro ⟨⟨⟨⟨%a, HA⟩, %b, HB⟩, HR⟩, Hg⟩
    iexists (a, b); iframe; ipureintro; exact fun h => absurd rfl h
  | succ n =>
    unfold Phi2; iintro ⟨⟨HA, HB, HR⟩, Hg⟩
    iexists _; iframe; ipureintro; exact fun _ => rfl

-- The running sums after a point: its rows' sums over zero at the first point, over the sums so far afterwards.
theorem r2_acc (c : Dev nD) (t : Fin cfg2.N) (s) (hs : t.val ≠ 0 → s = acc2 V c (t.val - 1)) :
    acc2 V c t.val = (k2_pay7 (in2_0 V c t) (in2_1 V c t) (in2_2 V c t) (in2_3 V c t) (in2_4 V c t) (if r2_cond0 (grid2.coords t) then k2_pay4 else s.1),
      k2_pay1 (k2_pay6 (in2_0 V c t) (in2_1 V c t) (in2_2 V c t) (in2_3 V c t) (in2_4 V c t)) (if r2_cond0 (grid2.coords t) then k2_pay5 else s.2)) := by
  by_cases h : t.val = 0
  · rw [if_pos ((r2_hcond0 t).mpr h), if_pos ((r2_hcond0 t).mpr h)]
    obtain ⟨_ | n, hn⟩ := t
    · rfl
    · exact absurd h (Nat.succ_ne_zero _)
  · rw [if_neg (mt (r2_hcond0 t).mp h), if_neg (mt (r2_hcond0 t).mp h), hs h]
    obtain ⟨_ | n, hn⟩ := t
    · exact absurd rfl h
    · exact (acc2.eq_2 V c n).trans (dif_pos hn)

def r2_pre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d)) ∗ (∃ d, owns (c : Thread nD τ) (st2_1 t) fullShare ((dat2 V c).before 1 t d))
    ∗ (∃ d, owns (c : Thread nD τ) (st2_2 t) fullShare ((dat2 V c).before 2 t d)) ∗ (∃ d, owns (c : Thread nD τ) (st2_3 t) fullShare ((dat2 V c).before 3 t d))
    ∗ (∃ d, owns (c : Thread nD τ) (st2_4 t) fullShare ((dat2 V c).before 4 t d)) ∗ (∃ d, owns (c : Thread nD τ) (st2_5 t) fullShare ((dat2 V c).before 5 t d))
    ∗ (∃ d, owns (c : Thread nD τ) (st2_6 t) fullShare ((dat2 V c).before 6 t d)) ∗ (∃ d, owns (c : Thread nD τ) (st2_7 t) fullShare ((dat2 V c).before 7 t d)))

def r2_post (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t ∗ (dat2 V c).leavesExact 7 t)

theorem r2_sound (c : Dev nD) (t : Fin cfg2.N) :
    r2_pre V c t ⊢ wp frame (wpE (defs₀ (F := F)) Variants.none c none) Set.univ (bodyAt2 t) (fun _ => r2_post V c t) := by
  have h01 : r2_cond0 (grid2.coords t) → ¬r2_cond1 (grid2.coords t) := fun h0 h1 => by
    have := (r2_hcond0 t).mp h0; have := (r2_hcond1 t).mp h1; omega
  unfold r2_pre r2_post bodyAt2
  simp only [r2_before V c t]
  rw [show (dat2 V c).owesAt () t.succ = (dat2 V c).owesAt () t.castSucc from rfl, Phi_eq2, Phi_eq2, Fin.coe_castSucc, Fin.val_succ,
    r2_leaves V c t 0 (r2_live t 0 (.inl (by decide))), r2_leaves V c t 1 (r2_live t 1 (.inl (by decide))), r2_leaves V c t 2 (r2_live t 2 (.inl (by decide))),
    r2_leaves V c t 3 (r2_live t 3 (.inl (by decide))), r2_leaves V c t 4 (r2_live t 4 (.inl (by decide))), r2_leaves V c t 5 (r2_live t 5 (.inl (by decide))),
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (r2_Phi_open V c t.val) $$ HΦ with ⟨%s, %hs, HA, HB, HR, Hg⟩
  iapply (r2_run c (grid2.coords t) h01 (in2_0 V c t) (in2_1 V c t) (in2_2 V c t) (in2_3 V c t) (in2_4 V c t) ((dat2 V c).before 5 t d5) ((dat2 V c).before 6 t d6) ((dat2 V c).before 7 t d7) s.1 s.2 Set.univ _)
  iframe H0 H1 H2 H3 H4 H5 H6 H7 HA HB
  iintro ⟨H0, H1, H2, H3, H4, H5, H6, H7, HA, HB⟩
  rw [Phi2, r2_acc V c t s hs]; unfold z2
  iframe Ho H0 H1 H2 H3 H4 H5 HA HB HR Hg
  isplitl [H6]
  · iapply (r2_leaves_small V c t 6 (by decide) d6 _ fun h => by
      rw [after2_6]; unfold mean2; rw [show 19 = t.val from ((r2_hcond1 t).mp h).symm, r2_acc V c t s hs]) $$ H6
  · iapply (r2_leaves_small V c t 7 (by decide) d7 _ fun h => by
      rw [after2_7]; unfold var2; rw [show 19 = t.val from ((r2_hcond1 t).mp h).symm, r2_acc V c t s hs]) $$ H7

theorem body_obligation2 (c : Dev nD) : BodyObligation (dat2 (F := F) V c) (defs₀ (F := F)) Variants.none () Set.univ := fun t => by
  rw [bigSep_W2, bigSep_W2]
  exact r2_sound V c t

theorem hin2 (c : Dev nD) : (Pipeline.ΦA spec2 c : sProp 𝕄) ⊢ (dat2 V c).Φ 0 := by
  rw [Phi_eq2]; exact .rfl

theorem hout2 (c : Dev nD) : (dat2 V c).Φ (Fin.last cfg2.N) ⊢ (Pipeline.ΦA spec2 c : sProp 𝕄) := by
  rw [Phi_eq2, Fin.val_last, show cfg2.N = 19 + 1 from N_2, Phi2, r2_PhiA_eq]
  iintro ⟨⟨HA, HB, HR⟩, Hg⟩
  iframe HR Hg
  isplitl [HA] <;> iexists _ <;> iassumption

end Cert.Kernel.Hand

end
-- ==== Proof.K.R3.lean ====
import proofs.«108410_j49581102465153_1_alg».proof.Proof.Gen.Kernel.Launch
import proofs.«108410_j49581102465153_1_alg».proof.Proof.Gen.Kernel.Skeleton
import proofs.«108410_j49581102465153_1_alg».proof.Proof.Gen.Kernel.Points
import proofs.«108410_j49581102465153_1_alg».proof.Proof.K.D3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

theorem off00_3 : (![0, 0] : Fin 2 → ℕ) = fun _ => 0 := funext fun a => by fin_cases a <;> rfl

set_option maxHeartbeats 1000000 in
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__bn_relu_final_kernel i arg1 harg1 arg2 harg2 arg3 harg3 arg4 harg4 arg5 harg5 arg6 harg6) K := by
  simp only [cc3__bn_relu_final_kernel_eq_skeleton]; unfold cc3__bn_relu_final_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]; iexists _; iframe H1; ipureintro; rotate_left
  isplitl [H2]; iexists _; iframe H2; ipureintro; rotate_left
  isplitl [H3]; iexists _; iframe H3; ipureintro; rotate_left
  isplitl [H4]; iexists _; iframe H4; ipureintro; rotate_left
  isplitl [H5]; iexists _; iframe H5; ipureintro; rotate_left
  iexists _; iframe H6; ipureintro
  all_goals first | rfl | skip
  rw [View.read_writes_eq_canon _ _ _
      (fun y => ⟨_, List.mem_singleton_self _, View.mem_set_unit_zero off00_3 inb_S5000x128_S5000x128_0_0 y⟩),
    View.canon_unit_zero off00_3]
  simp only [View.readAt_eq_ld, View.ld_unit_zero (S := S5000x128) off00_3, View.ld_unit_zero (S := S1x128) off00_3]

theorem body_obligation3 (c : Dev nD) : BodyObligation (dat3 (F := F) V c) (defs₀ (F := F)) Variants.none () Set.univ := fun t => by
  rw [bigSep_W3, bigSep_W3]
  dsimp only
  show _ ⊢ wp frame _ _ (bodyAt3 t) _
  unfold bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold z3
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

end Cert.Kernel.Hand

end
-- ==== Proof.K.Run.lean ====
import proofs.«108410_j49581102465153_1_alg».proof.Proof.K.Fold
import proofs.«108410_j49581102465153_1_alg».proof.Proof.K.R0
import proofs.«108410_j49581102465153_1_alg».proof.Proof.K.R1
import proofs.«108410_j49581102465153_1_alg».proof.Proof.K.R2
import proofs.«108410_j49581102465153_1_alg».proof.Proof.K.R3
import proofs.«108410_j49581102465153_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem withArrays_keep {cfg : Cfg sig Λ₀} (c : Dev nD) (W : Valuation τ sig (Elt F)) (d : Dat τ (Elt F) Unit ℕ (UR sig nD τ) ℕ cfg c)
    (hinj : Function.Injective (Pipeline.arrRef cfg.spec)) (hA : ∀ w, d.A w = W (Proc.devRef .tc (Pipeline.arrRef cfg.spec w)))
    (r : Ref sig .tc) (h : ∀ w, Pipeline.arrRef cfg.spec w = r → (cfg.win w).isOut = false) :
    Pipeline.withArrays cfg.spec c W (fun w => d.arrAt w cfg.N) (Proc.devRef .tc r) = W (Proc.devRef .tc r) := by
  by_cases e : ∃ w, Pipeline.arrRef cfg.spec w = r
  · obtain ⟨w, rfl⟩ := e
    rw [Pipeline.withArrays_arr _ hinj, d.arrAt_in w (h w rfl), hA]
  · exact Pipeline.withArrays_of_ne _ c _ _ r fun w e' => e ⟨w, e'⟩

abbrev Kept (r : Ref sig .tc) : Prop :=
  ¬ (Proc.devRef .tc r : DevRef τ sig).isScoped ∧ r ∉ hostOps0_W ∧ r ∉ hostOps1_W ∧ r ∉ hostOps2_W ∧ r ∉ hostOps3_W
    ∧ (∀ w, Pipeline.arrRef spec0 w = r → (cfg0.win w).isOut = false) ∧ (∀ w, Pipeline.arrRef spec1 w = r → (cfg1.win w).isOut = false)
    ∧ (∀ w, Pipeline.arrRef spec2 w = r → (cfg2.win w).isOut = false) ∧ (∀ w, Pipeline.arrRef spec3 w = r → (cfg3.win w).isOut = false)

theorem W8_kept (c : Dev nD) (r : Ref sig .tc) (h : Kept r) : W8 m c (Proc.devRef .tc r) = m ((c : Thread nD τ).loc r) := by
  obtain ⟨-, h0, h1, h2, h3, k0, k1, k2, k3⟩ := h
  exact (withArrays_keep c _ (dat3 (V7 m) c) launch3.win.arr_inj (A_eq3 _ c) r k3).trans <|
    (StableHlo.after_of_writes_sub hostOps3 _ hostOps3_writes h3).trans <|
    (withArrays_keep c _ (dat2 (V5 m) c) launch2.win.arr_inj (A_eq2 _ c) r k2).trans <|
    (StableHlo.after_of_writes_sub hostOps2 _ hostOps2_writes h2).trans <|
    (withArrays_keep c _ (dat1 (V3 m) c) launch1.win.arr_inj (A_eq1 _ c) r k1).trans <|
    (StableHlo.after_of_writes_sub hostOps1 _ hostOps1_writes h1).trans <|
    (withArrays_keep c _ (dat0 (V1 m) c) launch0.win.arr_inj (A_eq0 _ c) r k0).trans <|
    StableHlo.after_of_writes_sub hostOps0 _ hostOps0_writes h0

variable (F) in
abbrev cf (p : Fin 4) : Cfg sig Λ₀ := Pipeline.pin (pcfgs (F := F)) adm p
def pdats : (p : Fin 4) → (c : Dev nD) → Dat τ (Elt F) Unit ℕ (UR sig nD τ) ℕ (cf F p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def regOf (p : Fin 4) (lf : Pipeline.LaunchFacts (nD := nD) (τ := τ) cfgs p) (W : Dev nD → Valuation τ sig (Elt F))
    (hb : ∀ c, BodyObligation (pdats m p c) (defs₀ (F := F)) 𝒱₀ () Set.univ)
    (hq : ∀ c w, (pdats m p c).q w = fullShare) (howed : ∀ c t, (pdats m p c).owed t = 0) (hrec : ∀ c, (pdats m p c).recorded 0 = Set.univ)
    (hA : ∀ c w, (pdats m p c).A w = W c (Proc.devRef .tc (Pipeline.arrRef (cf F p).spec w)))
    (hin : ∀ c, (Pipeline.ΦA (cf F p).spec c : sProp 𝕄) ⊢ (pdats m p c).Φ 0)
    (hout : ∀ c, (pdats m p c).Φ (Fin.last _) ⊢ (Pipeline.ΦA (cf F p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig)
    (Pipeline.withArrays (cf F p).spec c (W c) fun w => (pdats m p c).arrAt w (cf F p).N) ∗ R c)
  X c := iprop(∃ r, prngReg c r)
  Y c := iprop(∃ r, prngReg c r)
  Z c := Pipeline.unscopedRest (Ix := Unit) (Name := ℕ) (U := UR sig nD τ) (Lvl := ℕ) (cf F p).spec c (fun b => W c b)
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, %O, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [howed]
    iexists O; isplitr; · ipureintro; exact fun _ _ => Or.inl (hrec c ▸ trivial)
    iexact HO
  hin c := by
    refine BIBase.Entails.trans ?_ (hin c)
    unfold Pipeline.ΦA
    iintro ⟨Hp, -, Hr⟩; isplitl [Hr] <;> iassumption
  hout c := by
    rw [Pipeline.ownSems0_none]
    refine BIBase.Entails.trans (hout c) ?_
    unfold Pipeline.ΦA
    iintro ⟨Hr, Hp⟩; iframe; iempintro
  hexit c := by
    have hinj : Function.Injective (Pipeline.arrRef (cf F p).spec) := lf.win.arr_inj
    unfold Pipeline.Dat.owesAt Pipeline.owesWithin; rw [howed]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => W c b)
      (fun b => Pipeline.withArrays (cf F p).spec c (W c) (fun w => (pdats m p c).arrAt w (cf F p).N) b)
      ((pdats m p c).arrAt · (cf F p).N)
      (fun w => (Pipeline.withArrays_arr (cf F p).spec hinj c (W c) ((pdats m p c).arrAt · (cf F p).N) w).symm)
      (fun b hb => Pipeline.withArrays_of_ne (cf F p).spec c (W c) ((pdats m p c).arrAt · (cf F p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%O, -, HO⟩; iexists O; iexact HO

set_option backward.isDefEq.respectTransparency.types false in
abbrev segs : List (Pipeline.Seg (pcfgs (F := F)) adm (pdats m) () defs₀ 𝒱₀ L lv) :=
  [ .host (hseg hostOps0 hostOps0_sub hostOps0_fresh (W0 m)),
    .region (regOf m 0 launch0 (W1 m) (body_obligation0 (V1 m)) (fun _ _ => rfl) (fun _ _ => rfl) (fun _ => rfl) (A_eq0 (V1 m)) (hin0 (V1 m)) (hout0 (V1 m))),
    .host (hseg hostOps1 hostOps1_sub hostOps1_fresh (W2 m)),
    .region (regOf m 1 launch1 (W3 m) (body_obligation1 (V3 m)) (fun _ _ => rfl) (fun _ _ => rfl) (fun _ => rfl) (A_eq1 (V3 m)) (hin1 (V3 m)) (hout1 (V3 m))),
    .host (hseg hostOps2 hostOps2_sub hostOps2_fresh (W4 m)),
    .region (regOf m 2 launch2 (W5 m) (body_obligation2 (V5 m)) (fun _ _ => rfl) (fun _ _ => rfl) (fun _ => rfl) (A_eq2 (V5 m)) (hin2 (V5 m)) (hout2 (V5 m))),
    .host (hseg hostOps3 hostOps3_sub hostOps3_fresh (W6 m)),
    .region (regOf m 3 launch3 (W7 m) (body_obligation3 (V7 m)) (fun _ _ => rfl) (fun _ _ => rfl) (fun _ => rfl) (A_eq3 (V7 m)) (fun _ => .rfl) (fun _ => .rfl)) ]
theorem main_run (c : Dev nD) : main (F := F) c = Pipeline.Seg.run (segs m) := (main_chain c).trans (by chain_rfl)

set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      iframe)
    (hQ := fun s h => h)

abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)

theorem result_mem (ρ : Dev nD → PrngReg) : θ_run defs (onTc (τ := τ) (main (F := F))) ⟨m, fun _ => 0, ρ⟩ (fun r => ∀ c : Dev nD,
      r.2.mem ((c.tc : Thread nD τ).loc main_v21) = (dat3 (V7 m) c).arrAt 5 cfg3.N ∧ ArgsKept m r.2 c) :=
  (θ_run defs _ _).mono (fun r h c =>
    have k (b : Ref sig .tc) (hb : Kept b) : r.2.mem ((c.tc : Thread nD τ).loc b) = m ((c.tc : Thread nD τ).loc b) :=
      (h c _ (mem_uc b hb.1)).trans (W8_kept m c b hb)
    ⟨(h c _ (mem_uc main_v21 (by decide))).trans (W8_arr m c 5), k _ (by decide), k _ (by decide), k _ (by decide), k _ (by decide),
      k _ (by decide), k _ (by decide), k _ (by decide), k _ (by decide), k _ (by decide), k _ (by decide), k _ (by decide),
      k _ (by decide), k _ (by decide)⟩) (run_all m ρ)

theorem frame (ρ : Dev nD → PrngReg) : θ_run defs (onTc (τ := τ) (main (F := F))) ⟨m, fun _ => 0, ρ⟩ (fun r => ∀ c : Dev nD, ArgsKept m r.2 c) :=
  (θ_run defs _ _).mono (fun r h c => (h c).2) (result_mem m ρ)

end Cert.Kernel.Hand

end
-- ==== Proof.KI.D0.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev in0_0 (c : Dev nD) (t : Fin cfg0.N) : Vec F S5000x32 .f32 := iblk0 V c 0 t

abbrev in0_1 (c : Dev nD) (t : Fin cfg0.N) : Vec F S5000x32 .f32 := iblk0 V c 1 t

abbrev in0_2 (c : Dev nD) (t : Fin cfg0.N) : Vec F S32x128 .f32 := iblk0 V c 2 t

abbrev in0_3 (c : Dev nD) (t : Fin cfg0.N) : Vec F S1x128 .f32 := iblk0 V c 3 t

def z0 (c : Dev nD) (t : Fin cfg0.N) : Vec F S5000x128 .f32 :=
  k0_pay5 (in0_0 V c t) (in0_1 V c t) (in0_2 V c t) (in0_3 V c t)

theorem pos0 : 0 < cfg0.N := by rw [show cfg0.N = 20 from N_0]; omega

def acc0 (c : Dev nD) : ℕ → Vec F S1x128 .f32 × Vec F S1x128 .f32
  | 0 => (k0_pay6 (in0_0 V c ⟨0, pos0⟩) (in0_1 V c ⟨0, pos0⟩) (in0_2 V c ⟨0, pos0⟩) (in0_3 V c ⟨0, pos0⟩) k0_pay3,
          k0_pay7 (in0_0 V c ⟨0, pos0⟩) (in0_1 V c ⟨0, pos0⟩) (in0_2 V c ⟨0, pos0⟩) (in0_3 V c ⟨0, pos0⟩) k0_pay4)
  | n + 1 =>
    if h : n + 1 < cfg0.N then
      (k0_pay6 (in0_0 V c ⟨n + 1, h⟩) (in0_1 V c ⟨n + 1, h⟩) (in0_2 V c ⟨n + 1, h⟩) (in0_3 V c ⟨n + 1, h⟩) (acc0 c n).1,
       k0_pay7 (in0_0 V c ⟨n + 1, h⟩) (in0_1 V c ⟨n + 1, h⟩) (in0_2 V c ⟨n + 1, h⟩) (in0_3 V c ⟨n + 1, h⟩) (acc0 c n).2)
    else acc0 c n

def mean0 (c : Dev nD) : Vec F S1x128 .f32 := k0_pay1 (acc0 V c 19).1
def var0 (c : Dev nD) : Vec F S1x128 .f32 := k0_pay2 (acc0 V c 19).1 (acc0 V c 19).2

abbrev scA0 : Memref sig .tc .vmem S1x128 .f32 := Memref.whole cc0_scratch0
abbrev scB0 : Memref sig .tc .vmem S1x128 .f32 := Memref.whole cc0_scratch1

def Phi0 (c : Dev nD) : ℕ → sProp 𝕄
  | 0 => Pipeline.ΦA spec0 c
  | n + 1 => iprop(iprop(owns (c : Thread nD τ) scA0 fullShare (acc0 V c n).1
      ∗ owns (c : Thread nD τ) scB0 fullShare (acc0 V c n).2
      ∗ Pipeline.scopedRestBut (Ix := Unit) (Name := ℕ) (U := UR sig nD τ) (Lvl := ℕ) (Val := Elt F) spec0 c [cc0_scratch0, cc0_scratch1])
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => z0 V c t
    | ⟨5, _⟩ => mean0 V c
    | ⟨6, _⟩ => var0 V c
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = z0 V c t := by dsimp only [dat0]
theorem after0_5 (c : Dev nD) (t : Fin cfg0.N) : (dat0 V c).after 5 t = mean0 V c := by dsimp only [dat0]
theorem after0_6 (c : Dev nD) (t : Fin cfg0.N) : (dat0 V c).after 6 t = var0 V c := by dsimp only [dat0]
theorem Phi_eq0 (c : Dev nD) (t : Fin (cfg0.N + 1)) : (dat0 V c).Φ t = Phi0 V c t.val := by dsimp only [dat0]

end Cert.KernelIdeal.Hand

end
-- ==== Proof.KI.D1.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev in1_0 (c : Dev nD) (t : Fin cfg1.N) : Vec F S5000x128 .f32 := iblk1 V c 0 t

abbrev in1_1 (c : Dev nD) (t : Fin cfg1.N) : Vec F S1x128 .f32 := iblk1 V c 1 t

abbrev in1_2 (c : Dev nD) (t : Fin cfg1.N) : Vec F S1x128 .f32 := iblk1 V c 2 t

abbrev in1_3 (c : Dev nD) (t : Fin cfg1.N) : Vec F S1x128 .f32 := iblk1 V c 3 t

abbrev in1_4 (c : Dev nD) (t : Fin cfg1.N) : Vec F S1x128 .f32 := iblk1 V c 4 t

abbrev in1_5 (c : Dev nD) (t : Fin cfg1.N) : Vec F S128x128 .f32 := iblk1 V c 5 t

abbrev in1_6 (c : Dev nD) (t : Fin cfg1.N) : Vec F S1x128 .f32 := iblk1 V c 6 t

def z1 (c : Dev nD) (t : Fin cfg1.N) : Vec F S5000x128 .f32 :=
  k1_pay7 (in1_0 V c t) (in1_1 V c t) (in1_2 V c t) (in1_3 V c t) (in1_4 V c t) (in1_5 V c t) (in1_6 V c t)

theorem pos1 : 0 < cfg1.N := by rw [show cfg1.N = 20 from N_1]; omega

def acc1 (c : Dev nD) : ℕ → Vec F S1x128 .f32 × Vec F S1x128 .f32
  | 0 => (k1_pay1 (z1 V c ⟨0, pos1⟩) k1_pay5,
          k1_pay2 (z1 V c ⟨0, pos1⟩) k1_pay6)
  | n + 1 =>
    if h : n + 1 < cfg1.N then
      (k1_pay1 (z1 V c ⟨n + 1, h⟩) (acc1 c n).1,
       k1_pay2 (z1 V c ⟨n + 1, h⟩) (acc1 c n).2)
    else acc1 c n

def mean1 (c : Dev nD) : Vec F S1x128 .f32 := k1_pay3 (acc1 V c 19).1
def var1 (c : Dev nD) : Vec F S1x128 .f32 := k1_pay4 (acc1 V c 19).1 (acc1 V c 19).2

abbrev scA1 : Memref sig .tc .vmem S1x128 .f32 := Memref.whole cc1_scratch0
abbrev scB1 : Memref sig .tc .vmem S1x128 .f32 := Memref.whole cc1_scratch1

def Phi1 (c : Dev nD) : ℕ → sProp 𝕄
  | 0 => Pipeline.ΦA spec1 c
  | n + 1 => iprop(iprop(owns (c : Thread nD τ) scA1 fullShare (acc1 V c n).1
      ∗ owns (c : Thread nD τ) scB1 fullShare (acc1 V c n).2
      ∗ Pipeline.scopedRestBut (Ix := Unit) (Name := ℕ) (U := UR sig nD τ) (Lvl := ℕ) (Val := Elt F) spec1 c [cc1_scratch0, cc1_scratch1])
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => z1 V c t
    | ⟨8, _⟩ => mean1 V c
    | ⟨9, _⟩ => var1 V c
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = z1 V c t := by dsimp only [dat1]
theorem after1_8 (c : Dev nD) (t : Fin cfg1.N) : (dat1 V c).after 8 t = mean1 V c := by dsimp only [dat1]
theorem after1_9 (c : Dev nD) (t : Fin cfg1.N) : (dat1 V c).after 9 t = var1 V c := by dsimp only [dat1]
theorem Phi_eq1 (c : Dev nD) (t : Fin (cfg1.N + 1)) : (dat1 V c).Φ t = Phi1 V c t.val := by dsimp only [dat1]

end Cert.KernelIdeal.Hand

end
-- ==== Proof.KI.D2.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev in2_0 (c : Dev nD) (t : Fin cfg2.N) : Vec F S5000x128 .f32 := iblk2 V c 0 t

abbrev in2_1 (c : Dev nD) (t : Fin cfg2.N) : Vec F S1x128 .f32 := iblk2 V c 1 t

abbrev in2_2 (c : Dev nD) (t : Fin cfg2.N) : Vec F S1x128 .f32 := iblk2 V c 2 t

abbrev in2_3 (c : Dev nD) (t : Fin cfg2.N) : Vec F S1x128 .f32 := iblk2 V c 3 t

abbrev in2_4 (c : Dev nD) (t : Fin cfg2.N) : Vec F S1x128 .f32 := iblk2 V c 4 t

def z2 (c : Dev nD) (t : Fin cfg2.N) : Vec F S5000x128 .f32 :=
  k2_pay6 (in2_0 V c t) (in2_1 V c t) (in2_2 V c t) (in2_3 V c t) (in2_4 V c t)

theorem pos2 : 0 < cfg2.N := by rw [show cfg2.N = 20 from N_2]; omega

def acc2 (c : Dev nD) : ℕ → Vec F S1x128 .f32 × Vec F S1x128 .f32
  | 0 => (k2_pay7 (in2_0 V c ⟨0, pos2⟩) (in2_1 V c ⟨0, pos2⟩) (in2_2 V c ⟨0, pos2⟩) (in2_3 V c ⟨0, pos2⟩) (in2_4 V c ⟨0, pos2⟩) k2_pay4,
          k2_pay1 (z2 V c ⟨0, pos2⟩) k2_pay5)
  | n + 1 =>
    if h : n + 1 < cfg2.N then
      (k2_pay7 (in2_0 V c ⟨n + 1, h⟩) (in2_1 V c ⟨n + 1, h⟩) (in2_2 V c ⟨n + 1, h⟩) (in2_3 V c ⟨n + 1, h⟩) (in2_4 V c ⟨n + 1, h⟩) (acc2 c n).1,
       k2_pay1 (z2 V c ⟨n + 1, h⟩) (acc2 c n).2)
    else acc2 c n

def mean2 (c : Dev nD) : Vec F S1x128 .f32 := k2_pay2 (acc2 V c 19).1
def var2 (c : Dev nD) : Vec F S1x128 .f32 := k2_pay3 (acc2 V c 19).1 (acc2 V c 19).2

abbrev scA2 : Memref sig .tc .vmem S1x128 .f32 := Memref.whole cc2_scratch0
abbrev scB2 : Memref sig .tc .vmem S1x128 .f32 := Memref.whole cc2_scratch1

def Phi2 (c : Dev nD) : ℕ → sProp 𝕄
  | 0 => Pipeline.ΦA spec2 c
  | n + 1 => iprop(iprop(owns (c : Thread nD τ) scA2 fullShare (acc2 V c n).1
      ∗ owns (c : Thread nD τ) scB2 fullShare (acc2 V c n).2
      ∗ Pipeline.scopedRestBut (Ix := Unit) (Name := ℕ) (U := UR sig nD τ) (Lvl := ℕ) (Val := Elt F) spec2 c [cc2_scratch0, cc2_scratch1])
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => z2 V c t
    | ⟨6, _⟩ => mean2 V c
    | ⟨7, _⟩ => var2 V c
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = z2 V c t := by dsimp only [dat2]
theorem after2_6 (c : Dev nD) (t : Fin cfg2.N) : (dat2 V c).after 6 t = mean2 V c := by dsimp only [dat2]
theorem after2_7 (c : Dev nD) (t : Fin cfg2.N) : (dat2 V c).after 7 t = var2 V c := by dsimp only [dat2]
theorem Phi_eq2 (c : Dev nD) (t : Fin (cfg2.N + 1)) : (dat2 V c).Φ t = Phi2 V c t.val := by dsimp only [dat2]

end Cert.KernelIdeal.Hand

end
-- ==== Proof.KI.D3.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev in3_0 (c : Dev nD) (t : Fin cfg3.N) : Vec F S5000x128 .f32 := iblk3 V c 0 t
abbrev in3_1 (c : Dev nD) (t : Fin cfg3.N) : Vec F S1x128 .f32 := iblk3 V c 1 t
abbrev in3_2 (c : Dev nD) (t : Fin cfg3.N) : Vec F S1x128 .f32 := iblk3 V c 2 t
abbrev in3_3 (c : Dev nD) (t : Fin cfg3.N) : Vec F S1x128 .f32 := iblk3 V c 3 t
abbrev in3_4 (c : Dev nD) (t : Fin cfg3.N) : Vec F S1x128 .f32 := iblk3 V c 4 t

def z3 (c : Dev nD) (t : Fin cfg3.N) : Vec F S5000x128 .f32 :=
  k3_pay1 (in3_0 V c t) (in3_1 V c t) (in3_2 V c t) (in3_3 V c t) (in3_4 V c t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => z3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = z3 V c t := by dsimp only [dat3]

end Cert.KernelIdeal.Hand

end
-- ==== Proof.KI.Fold.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import proofs.«108410_j49581102465153_1_alg».proof.Proof.KI.D0
import proofs.«108410_j49581102465153_1_alg».proof.Proof.KI.D1
import proofs.«108410_j49581102465153_1_alg».proof.Proof.KI.D2
import proofs.«108410_j49581102465153_1_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w

end Cert.KernelIdeal.Hand

end
-- ==== Proof.KI.R0.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import proofs.«108410_j49581102465153_1_alg».proof.Proof.KI.D0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

theorem hz_frame0 : (![0, 0] : Fin 2 → ℕ) = fun _ => 0 := funext fun a => by fin_cases a <;> rfl

-- Reading a buffer back after a store to all of it gives the stored value.
theorem read_writes_whole_last0 {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1500000 in
-- The kernel body in its three control cases: the first point starts the running sums from zero, the last also writes the means and variances.
theorem run0 (c : Dev nD) (i : grid0.Coords) (arg1 : Memref sig .tc .vmem S5000x32 .f32) (harg1 : arg1.IsWhole) (arg2 : Memref sig .tc .vmem S5000x32 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 x1 : Vec F S5000x32 .f32) (x2 : Vec F S32x128 .f32) (x3 xi5 xi6 s0 s1 a0 a1 o5 o6 : Vec F S1x128 .f32)
    (hcase : (cond0_0 i ∧ ¬cond0_1 i ∧ a0 = k0_pay3 ∧ a1 = k0_pay4 ∧ o5 = xi5 ∧ o6 = xi6)
      ∨ (¬cond0_0 i ∧ ¬cond0_1 i ∧ a0 = s0 ∧ a1 = s1 ∧ o5 = xi5 ∧ o6 = xi6)
      ∨ (¬cond0_0 i ∧ cond0_1 i ∧ a0 = s0 ∧ a1 = s1 ∧ o5 = k0_pay1 (k0_pay6 x0 x1 x2 x3 s0)
          ∧ o6 = k0_pay2 (k0_pay6 x0 x1 x2 x3 s0) (k0_pay7 x0 x1 x2 x3 s1)))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay5 x0 x1 x2 x3) ∗ owns (c : Thread nD τ) arg6 fullShare o5 ∗ owns (c : Thread nD τ) arg7 fullShare o6
            ∗ owns (c : Thread nD τ) arg8 fullShare (k0_pay6 x0 x1 x2 x3 a0) ∗ owns (c : Thread nD τ) arg9 fullShare (k0_pay7 x0 x1 x2 x3 a1)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  rcases hcase with ⟨hc0, hc1, rfl, rfl, rfl, rfl⟩ | ⟨hc0, hc1, rfl, rfl, rfl, rfl⟩ | ⟨hc0, hc1, rfl, rfl, rfl, rfl⟩ <;> (
    sl_exec (disch := first | exact hc0 | exact hc1)
    sl_step
    iapply Hk
    isplitl [H1]; · iexists _; iframe H1; ipureintro; exact harg1.read_unread _
    isplitl [H2]; · iexists _; iframe H2; ipureintro; exact harg2.read_unread _
    isplitl [H3]; · iexists _; iframe H3; ipureintro; exact harg3.read_unread _
    isplitl [H4]; · iexists _; iframe H4; ipureintro; exact harg4.read_unread _
    isplitl [H5]; iexists _; iframe H5; ipureintro; rotate_left
    isplitl [H6]; iexists _; iframe H6; ipureintro; rotate_left
    isplitl [H7]; iexists _; iframe H7; ipureintro; rotate_left
    isplitl [H8]; iexists _; iframe H8; ipureintro; rotate_left
    iexists _; iframe H9; ipureintro
    all_goals first
      | ((try sl_unfold_words); rw [read_writes_whole_last0 _ _ hz_frame0]; simp only [View.readAt_eq_ld, harg1.read_unread, harg2.read_unread, harg3.read_unread, harg4.read_unread, harg8.read_unread, harg9.read_unread, View.ld_unit_zero (S := S5000x32) hz_frame0, View.ld_unit_zero (S := S32x128) hz_frame0, View.ld_unit_zero (S := S1x128) hz_frame0, View.readCov_unit_zero (S := S1x128) _ hz_frame0])
      | assumption)

variable (V : (c : Dev nD) → (b : Ref sig .tc) → Buf (Elt F) ((c : Thread nD τ).loc b))

theorem liveAt0 : ∀ t : Fin cfg0.N, ∀ w : Fin cfg0.W, w.val < 5 → cfg0.idle w (grid0.coords t) = false := by decide +kernel
theorem offLast0 : ∀ t : Fin cfg0.N, ¬cond0_1 (grid0.coords t) → ∀ w : Fin cfg0.W, 5 ≤ w.val →
    cfg0.idle w (grid0.coords t) = true ∧ (cfg0.win w).flush t = false := by decide +kernel
theorem atLast0 : ∀ t : Fin cfg0.N, cond0_1 (grid0.coords t) → ∀ w : Fin cfg0.W, 5 ≤ w.val →
    cfg0.idle w (grid0.coords t) = false := by decide +kernel

abbrev ms0_0 (t : Fin cfg0.N) : Memref sig .tc .vmem S5000x32 .f32 := win0_0.stage (cfg0.slots t 0)
abbrev ms0_1 (t : Fin cfg0.N) : Memref sig .tc .vmem S5000x32 .f32 := win0_1.stage (cfg0.slots t 1)
abbrev ms0_2 (t : Fin cfg0.N) : Memref sig .tc .vmem S32x128 .f32 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S5000x128 .f32 := win0_4.stage (cfg0.slots t 4)
abbrev ms0_5 (t : Fin cfg0.N) : Memref sig .tc .vmem S1x128 .f32 := win0_5.stage (cfg0.slots t 5)
abbrev ms0_6 (t : Fin cfg0.N) : Memref sig .tc .vmem S1x128 .f32 := win0_6.stage (cfg0.slots t 6)

theorem before0 (c : Dev nD) : (∀ t d, (dat0 V c).before 0 t d = iblk0 V c 0 t) ∧ (∀ t d, (dat0 V c).before 1 t d = iblk0 V c 1 t)
    ∧ (∀ t d, (dat0 V c).before 2 t d = iblk0 V c 2 t) ∧ (∀ t d, (dat0 V c).before 3 t d = iblk0 V c 3 t) := by
  refine ⟨?_, ?_, ?_, ?_⟩ <;> exact fun t d =>
    ((dat0 V c).before_in_eq_fetched _ rfl (fun _ => rfl) (fun _ _ _ => rfl) (fun _ => rfl) t d).trans rfl

-- The running sums one step unfolded: over the stored zeros at the first point, over the point before's afterwards.
theorem acc0_first (c : Dev nD) (t : Fin cfg0.N) (h : t.val = 0) :
    acc0 V c t.val = (k0_pay6 (in0_0 V c t) (in0_1 V c t) (in0_2 V c t) (in0_3 V c t) k0_pay3, k0_pay7 (in0_0 V c t) (in0_1 V c t) (in0_2 V c t) (in0_3 V c t) k0_pay4) := by
  obtain ⟨n, hn⟩ := t
  obtain rfl : n = 0 := h
  rfl
theorem acc0_later (c : Dev nD) (t : Fin cfg0.N) (h : t.val ≠ 0) :
    acc0 V c t.val = (k0_pay6 (in0_0 V c t) (in0_1 V c t) (in0_2 V c t) (in0_3 V c t) (acc0 V c (t.val - 1)).1, k0_pay7 (in0_0 V c t) (in0_1 V c t) (in0_2 V c t) (in0_3 V c t) (acc0 V c (t.val - 1)).2) := by
  obtain ⟨n, hn⟩ := t
  cases n with
  | zero => exact absurd rfl h
  | succ n => exact (acc0.eq_2 V c n).trans (dif_pos hn)

theorem PhiA0_eq (c : Dev nD) :
    (Pipeline.ΦA spec0 c : sProp 𝕄)
      = iprop(iprop(iprop((∃ d, owns (c : Thread nD τ) scA0 fullShare d) ∗ (∃ d, owns (c : Thread nD τ) scB0 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scA0, scB0, owns_whole]; try rfl

theorem Phi0_succ (c : Dev nD) (n : ℕ) :
    Phi0 V c (n + 1) = iprop(iprop(owns (c : Thread nD τ) scA0 fullShare (acc0 V c n).1
      ∗ owns (c : Thread nD τ) scB0 fullShare (acc0 V c n).2
      ∗ Pipeline.scopedRestBut (Ix := Unit) (Name := ℕ) (U := UR sig nD τ) (Lvl := ℕ) (Val := Elt F) spec0 c [cc0_scratch0, cc0_scratch1])
      ∗ (∃ r, prngReg c r)) := rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

theorem leaves_live0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

-- The body at any point: first, last or neither picks the case; the running sums pass through the invariant.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0 V c).1, (before0 V c).2.1, (before0 V c).2.2.1, (before0 V c).2.2.2]
  rw [show (dat0 V c).owesAt () t.succ = (dat0 V c).owesAt () t.castSucc from rfl, Phi_eq0, Phi_eq0]
  simp only [Fin.coe_castSucc, Fin.val_succ]
  rw [Phi0_succ, leaves_live0 V c 0 t (liveAt0 t 0 (by decide)), leaves_live0 V c 1 t (liveAt0 t 1 (by decide)),
    leaves_live0 V c 2 t (liveAt0 t 2 (by decide)), leaves_live0 V c 3 t (liveAt0 t 3 (by decide)),
    leaves_live0 V c 4 t (liveAt0 t 4 (by decide))]
  simp only [after0_0, after0_1, after0_2, after0_3, after0_4]
  unfold z0
  have hN : t.val < 20 := lt_of_lt_of_eq t.isLt (show cfg0.N = 20 from N_0)
  by_cases h0 : t.val = 0
  on_goal 2 => by_cases h1 : t.val = 19
  on_goal 1 =>
    have hc0 : cond0_0 (grid0.coords t) := (hcond0_0 t).mpr h0
    have hc1 : ¬cond0_1 (grid0.coords t) := fun h => by have := (hcond0_1 t).mp h; omega
    rw [acc0_first V c t h0, show Phi0 V c t.val = Pipeline.ΦA spec0 c from by rw [h0]; rfl, PhiA0_eq]
    iintro ⟨⟨⟨⟨⟨%sA, HA⟩, ⟨%sB, HB⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0 c (grid0.coords t) _ _ _ _ _ _ _ _ _ _ _ _ _ _ _ _ _ _ (in0_0 V c t) (in0_1 V c t) (in0_2 V c t) (in0_3 V c t) ((dat0 V c).before 5 t d5) ((dat0 V c).before 6 t d6) sA sB _ _ _ _ (Or.inl ⟨hc0, hc1, rfl, rfl, rfl, rfl⟩) Set.univ _)
  on_goal 2 =>
    have hc0 : ¬cond0_0 (grid0.coords t) := fun h => h0 ((hcond0_0 t).mp h)
    have hc1 : cond0_1 (grid0.coords t) := (hcond0_1 t).mpr h1
    rw [acc0_later V c t h0, show Phi0 V c t.val = Phi0 V c (t.val - 1 + 1) from by congr 1; omega, Phi0_succ]
    iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0 c (grid0.coords t) _ _ _ _ _ _ _ _ _ _ _ _ _ _ _ _ _ _ (in0_0 V c t) (in0_1 V c t) (in0_2 V c t) (in0_3 V c t) ((dat0 V c).before 5 t d5) ((dat0 V c).before 6 t d6) (acc0 V c (t.val - 1)).1 (acc0 V c (t.val - 1)).2 _ _ _ _ (Or.inr <| Or.inr ⟨hc0, hc1, rfl, rfl, rfl, rfl⟩) Set.univ _)
  on_goal 3 =>
    have hc0 : ¬cond0_0 (grid0.coords t) := fun h => h0 ((hcond0_0 t).mp h)
    have hc1 : ¬cond0_1 (grid0.coords t) := fun h => h1 ((hcond0_1 t).mp h)
    rw [acc0_later V c t h0, show Phi0 V c t.val = Phi0 V c (t.val - 1 + 1) from by congr 1; omega, Phi0_succ]
    iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0 c (grid0.coords t) _ _ _ _ _ _ _ _ _ _ _ _ _ _ _ _ _ _ (in0_0 V c t) (in0_1 V c t) (in0_2 V c t) (in0_3 V c t) ((dat0 V c).before 5 t d5) ((dat0 V c).before 6 t d6) (acc0 V c (t.val - 1)).1 (acc0 V c (t.val - 1)).2 _ _ _ _ (Or.inr <| Or.inl ⟨hc0, hc1, rfl, rfl, rfl, rfl⟩) Set.univ _)
  all_goals
    iframe H0 H1 H2 H3 H5 H6 HA HB
    isplitl [H4]; · iexists _; iexact H4
    iintro ⟨H0, H1, H2, H3, H4, H5, H6, HA, HB⟩
    iframe HA HB HR Hg Ho H0 H1 H2 H3 H4
  on_goal 2 =>
    rw [leaves_live0 V c 5 t (atLast0 t hc1 5 (by decide)), leaves_live0 V c 6 t (atLast0 t hc1 6 (by decide)), after0_5, after0_6]
    unfold mean0 var0
    rw [show acc0 V c 19 = acc0 V c t.val from by rw [h1], acc0_later V c t h0]
    iframe H5 H6
  all_goals
    rw [Dat.leavesExact_idle (dat0 V c) 5 t (offLast0 t hc1 5 (by decide)).1 (offLast0 t hc1 5 (by decide)).2,
      Dat.leavesExact_idle (dat0 V c) 6 t (offLast0 t hc1 6 (by decide)).1 (offLast0 t hc1 6 (by decide)).2]
    isplitl [H5]; · iexists _; iexact H5
    iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [Phi_eq0]; exact .rfl

theorem hout0 (c : Dev nD) : (dat0 V c).Φ (Fin.last cfg0.N) ⊢ (Pipeline.ΦA spec0 c : sProp 𝕄) := by
  rw [Phi_eq0, show (Fin.last cfg0.N).val = 19 + 1 from by rw [Fin.val_last]; exact N_0, Phi0_succ, PhiA0_eq]
  iintro ⟨⟨HA, HB, HR⟩, Hg⟩
  iframe HR Hg
  isplitl [HA] <;> iexists _ <;> iassumption

end Cert.KernelIdeal.Hand

end
-- ==== Proof.KI.R1.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import proofs.«108410_j49581102465153_1_alg».proof.Proof.KI.D1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

theorem hz_frame1 : (![0, 0] : Fin 2 → Nat) = fun _ => 0 := funext fun a => by fin_cases a <;> rfl

theorem read_writes_whole_last1 {S : Shape} (m : Memref sig .tc .vmem S .f32) (f : m.view.ty.Contents (Elt F))
    {off : Fin S.rank → Nat} (h : off = fun _ => 0) (inb : ∀ a, off a + S.size a ≤ S.size a) (w : S.Idx → Elt F .f32)
    (L : List (View.Piece (Elt F) S .f32)) :
    m.view.read (Elt F) (m.view.writes (Elt F) f ((⟨Rect.unit off S.size inb, w⟩ : View.Piece (Elt F) S .f32) :: L)) = w := by
  rw [View.read_writes_eq_canon _ _ _ (fun y => ⟨_, List.mem_cons_self, View.mem_set_unit_zero h inb y⟩),
    View.canon_cons_unit_zero h]

theorem readAt_whole1 {S : Shape} (m : Memref sig .tc .vmem S .f32) (hm : m.IsWhole)
    {off : Fin S.rank → Nat} (h : off = fun _ => 0) (inb : ∀ a, off a + S.size a ≤ S.size a) (X : S.Idx → Elt F .f32) :
    View.readAt (Elt F) m.view (Rect.unit off S.size inb).toLoadRect (hm.unread X) = X := by
  rw [View.readAt_eq_ld, hm.read_unread, View.ld_unit_zero h]

section
variable (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
  (x0 : Vec F S5000x128 .f32) (x1 x2 x3 x4 : Vec F S1x128 .f32) (x5 : Vec F S128x128 .f32) (x6 : Vec F S1x128 .f32)

set_option maxHeartbeats 1500000 in
-- One statement for every point: what each conditional changes is an `if` on its condition in what is left.
theorem run1 (hx : cond1_0 i → ¬cond1_1 i) (y7 : Vec F S5000x128 .f32) (y8 y9 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare y7 ∗ owns (c : Thread nD τ) arg9 fullShare y8 ∗ owns (c : Thread nD τ) arg10 fullShare y9 ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay7 x0 x1 x2 x3 x4 x5 x6) ∗ owns (c : Thread nD τ) arg9 fullShare (if cond1_1 i then k1_pay3 (k1_pay1 (k1_pay7 x0 x1 x2 x3 x4 x5 x6) (if cond1_0 i then k1_pay5 else s0)) else y8) ∗ owns (c : Thread nD τ) arg10 fullShare (if cond1_1 i then k1_pay4 (k1_pay1 (k1_pay7 x0 x1 x2 x3 x4 x5 x6) (if cond1_0 i then k1_pay5 else s0)) (k1_pay2 (k1_pay7 x0 x1 x2 x3 x4 x5 x6) (if cond1_0 i then k1_pay6 else s1)) else y9) ∗ owns (c : Thread nD τ) arg11 fullShare (k1_pay1 (k1_pay7 x0 x1 x2 x3 x4 x5 x6) (if cond1_0 i then k1_pay5 else s0)) ∗ owns (c : Thread nD τ) arg12 fullShare (k1_pay2 (k1_pay7 x0 x1 x2 x3 x4 x5 x6) (if cond1_0 i then k1_pay6 else s1))) -∗ K ⟨⟩))
      ⊢ wp frame (wpE (defs₀ (F := F)) Variants.none c none) E (cc1__bn_relu_linear_stats_kernel i arg1 harg1 arg2 harg2 arg3 harg3 arg4 harg4 arg5 harg5 arg6 harg6 arg7 harg7 arg8 harg8 arg9 harg9 arg10 harg10 arg11 harg11 arg12 harg12) K := by
  by_cases hc0 : cond1_0 i <;> by_cases hc1 : cond1_1 i
  · exact absurd hc1 (hx hc0)
  all_goals
    first | rw [if_pos hc0, if_pos hc0] | rw [if_neg hc0, if_neg hc0]
    first | rw [if_pos hc1, if_pos hc1] | rw [if_neg hc1, if_neg hc1]
    simp only [cc1__bn_relu_linear_stats_kernel_eq_skeleton]; unfold cc1__bn_relu_linear_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9; obtain rfl := harg11.eq_unread hfs0; obtain rfl := harg12.eq_unread hfs1
    sl_exec (disch := first | exact hc0 | exact hc1)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    isplitl [H5]; iexists _; isplitr; swap; iexact H5; ipureintro; rotate_left
    isplitl [H6]; iexists _; isplitr; swap; iexact H6; ipureintro; rotate_left
    isplitl [H7]; iexists _; isplitr; swap; iexact H7; ipureintro; rotate_left
    isplitl [H8]; iexists _; isplitr; swap; iexact H8; ipureintro; rotate_left
    isplitl [H9]; iexists _; isplitr; swap; iexact H9; ipureintro; rotate_left
    isplitl [HS0]; iexists _; isplitr; swap; iexact HS0; ipureintro; rotate_left
    iexists _; isplitr; swap; iexact HS1; ipureintro
    all_goals first
      | rw [Memref.IsWhole.read_unread]
      | (try sl_unfold_run_names
         refine (read_writes_whole_last1 _ _ hz_frame1 _ _ _).trans ?_
         simp only [readAt_whole1 arg1 harg1 hz_frame1, readAt_whole1 arg2 harg2 hz_frame1, readAt_whole1 arg3 harg3 hz_frame1, readAt_whole1 arg4 harg4 hz_frame1, readAt_whole1 arg5 harg5 hz_frame1, readAt_whole1 arg6 harg6 hz_frame1, readAt_whole1 arg7 harg7 hz_frame1, readAt_whole1 arg11 harg11 hz_frame1, readAt_whole1 arg12 harg12 hz_frame1, View.readCov_unit_zero (S := S1x128) _ hz_frame1])

end
variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl

theorem idleAt1 : ∀ (w : Fin cfg1.W) (t : Fin cfg1.N), 8 ≤ w.val → t.val ≠ 19 →
    cfg1.idle w (grid1.coords t) = true ∧ (cfg1.win w).flush t = false := by decide +kernel
theorem liveAt1 : ∀ (w : Fin cfg1.W) (t : Fin cfg1.N), t.val = 19 → cfg1.idle w (grid1.coords t) = false := by decide +kernel

theorem leaves1_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

theorem PhiA1_eq (c : Dev nD) :
    (Pipeline.ΦA spec1 c : sProp 𝕄)
      = iprop(iprop(iprop((∃ d, owns (c : Thread nD τ) scA1 fullShare d) ∗ (∃ d, owns (c : Thread nD τ) scB1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scA1, scB1, owns_whole]; try rfl

theorem Phi1_later (c : Dev nD) (n : ℕ) (hz : n ≠ 0) :
    Phi1 V c n = iprop(iprop(owns (c : Thread nD τ) scA1 fullShare (acc1 V c (n - 1)).1
      ∗ owns (c : Thread nD τ) scB1 fullShare (acc1 V c (n - 1)).2
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

theorem acc1_first (c : Dev nD) (t : Fin cfg1.N) (hz : t.val = 0) :
    acc1 V c t.val = (k1_pay1 (z1 V c t) k1_pay5, k1_pay2 (z1 V c t) k1_pay6) := by
  obtain ⟨n, hn⟩ := t
  cases n with
  | zero => rfl
  | succ n => exact absurd hz (Nat.succ_ne_zero n)

theorem acc1_later (c : Dev nD) (t : Fin cfg1.N) (hz : t.val ≠ 0) :
    acc1 V c t.val = (k1_pay1 (z1 V c t) (acc1 V c (t.val - 1)).1, k1_pay2 (z1 V c t) (acc1 V c (t.val - 1)).2) := by
  obtain ⟨n, hn⟩ := t
  cases n with
  | zero => exact absurd rfl hz
  | succ n => exact (acc1.eq_2 V c n).trans (dif_pos hn)

abbrev finds1 (c : Dev nD) (t : Fin cfg1.N) (w : Fin cfg1.W) : sProp 𝕄 :=
  iprop(∃ d, owns (c : Thread nD τ) ((cfg1.win w).stage (cfg1.slots t w)) fullShare ((dat1 V c).before w t d))

abbrev keeps1 (c : Dev nD) (t : Fin cfg1.N) (w : Fin cfg1.W) : sProp 𝕄 :=
  owns (c : Thread nD τ) ((cfg1.win w).stage (cfg1.slots t w)) fullShare ((dat1 V c).after w t)

def bodyPre1 (c : Dev nD) (t : Fin cfg1.N) : sProp 𝕄 :=
  iprop((dat1 V c).Φ t.castSucc ∗ (dat1 V c).owesAt () t.castSucc
    ∗ finds1 V c t 0 ∗ finds1 V c t 1 ∗ finds1 V c t 2 ∗ finds1 V c t 3 ∗ finds1 V c t 4 ∗ finds1 V c t 5 ∗ finds1 V c t 6 ∗ finds1 V c t 7 ∗ finds1 V c t 8 ∗ finds1 V c t 9)

def bodyPost1 (c : Dev nD) (t : Fin cfg1.N) : sProp 𝕄 :=
  iprop((dat1 V c).Φ t.succ ∗ (dat1 V c).owesAt () t.succ
    ∗ keeps1 V c t 0 ∗ keeps1 V c t 1 ∗ keeps1 V c t 2 ∗ keeps1 V c t 3 ∗ keeps1 V c t 4 ∗ keeps1 V c t 5 ∗ keeps1 V c t 6 ∗ keeps1 V c t 7
    ∗ (dat1 V c).leavesExact 8 t ∗ (dat1 V c).leavesExact 9 t)

-- By cases on the point (last, first, neither), each an instance of run1 with both conditions decided.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1 finds1 keeps1
  simp only [before1_0, before1_1, before1_2, before1_3, before1_4, before1_5, before1_6, after1_0, after1_1, after1_2, after1_3, after1_4, after1_5, after1_6, after1_7]
  rw [show (dat1 V c).owesAt () t.succ = (dat1 V c).owesAt () t.castSucc from rfl,
    show (dat1 V c).Φ t.succ = Phi1 V c (t.val + 1) from rfl, Phi1_later V c _ (Nat.succ_ne_zero _), Nat.succ_sub_one,
    show (dat1 V c).Φ t.castSucc = Phi1 V c t.val from rfl]
  unfold z1
  have R := run1 (F := F) c (grid1.coords t) (st1_0 t) (stage_whole1 0 _) (st1_1 t) (stage_whole1 1 _) (st1_2 t) (stage_whole1 2 _) (st1_3 t) (stage_whole1 3 _) (st1_4 t) (stage_whole1 4 _) (st1_5 t) (stage_whole1 5 _) (st1_6 t) (stage_whole1 6 _) (st1_7 t) (stage_whole1 7 _) (st1_8 t) (stage_whole1 8 _) (st1_9 t) (stage_whole1 9 _) scA1 (Memref.isWhole_whole _) scB1 (Memref.isWhole_whole _) (in1_0 V c t) (in1_1 V c t) (in1_2 V c t) (in1_3 V c t) (in1_4 V c t) (in1_5 V c t) (in1_6 V c t)
    (fun a b => by have := (hcond1_0 t).mp a; have := (hcond1_1 t).mp b; omega)
  by_cases h1 : t.val = 19
  · have h0 : t.val ≠ 0 := by omega
    have hc0 : ¬cond1_0 (grid1.coords t) := fun h => h0 ((hcond1_0 t).mp h)
    have hc1 := (hcond1_1 t).mpr h1
    rw [leaves1_live V c 8 t (liveAt1 8 t h1), leaves1_live V c 9 t (liveAt1 9 t h1), after1_8, after1_9]
    unfold mean1 var1
    rw [show acc1 V c 19 = acc1 V c t.val from by rw [h1], acc1_later V c t h0, Phi1_later V c t.val h0]; unfold z1; dsimp only
    iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have R := R ((dat1 V c).before 7 t d7) ((dat1 V c).before 8 t d8) ((dat1 V c).before 9 t d9) (acc1 V c (t.val - 1)).1 (acc1 V c (t.val - 1)).2 Set.univ
    simp only [if_neg hc0, if_pos hc1] at R
    iapply R
    iframe H0 H1 H2 H3 H4 H5 H6 H7 H8 H9 HA HB
    iintro ⟨H0, H1, H2, H3, H4, H5, H6, H7, H8, H9, HA, HB⟩
    iframe
  · have hc1 : ¬cond1_1 (grid1.coords t) := fun h => h1 ((hcond1_1 t).mp h)
    rw [Dat.leavesExact_idle (dat1 V c) 8 t (idleAt1 8 t (by decide) h1).1 (idleAt1 8 t (by decide) h1).2,
      Dat.leavesExact_idle (dat1 V c) 9 t (idleAt1 9 t (by decide) h1).1 (idleAt1 9 t (by decide) h1).2]
    by_cases h0 : t.val = 0
    · have hc0 := (hcond1_0 t).mpr h0
      rw [acc1_first V c t h0, show Phi1 V c t.val = Pipeline.ΦA spec1 c from by rw [h0]; rfl, PhiA1_eq]; unfold z1; dsimp only
      iintro ⟨⟨⟨⟨⟨%a, HA⟩, ⟨%b, HB⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have R := R ((dat1 V c).before 7 t d7) ((dat1 V c).before 8 t d8) ((dat1 V c).before 9 t d9) a b Set.univ
      simp only [if_pos hc0, if_neg hc1] at R
      iapply R
      iframe H0 H1 H2 H3 H4 H5 H6 H7 H8 H9 HA HB
      iintro ⟨H0, H1, H2, H3, H4, H5, H6, H7, H8, H9, HA, HB⟩
      iframe HA HB HR Hg Ho H0 H1 H2 H3 H4 H5 H6 H7
      isplitl [H8] <;> iexists _
      · iexact H8
      · iexact H9
    · have hc0 : ¬cond1_0 (grid1.coords t) := fun h => h0 ((hcond1_0 t).mp h)
      rw [acc1_later V c t h0, Phi1_later V c t.val h0]; unfold z1; dsimp only
      iintro ⟨⟨⟨HA, HB, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have R := R ((dat1 V c).before 7 t d7) ((dat1 V c).before 8 t d8) ((dat1 V c).before 9 t d9) (acc1 V c (t.val - 1)).1 (acc1 V c (t.val - 1)).2 Set.univ
      simp only [if_neg hc0, if_neg hc1] at R
      iapply R
      iframe H0 H1 H2 H3 H4 H5 H6 H7 H8 H9 HA HB
      iintro ⟨H0, H1, H2, H3, H4, H5, H6, H7, H8, H9, HA, HB⟩
      iframe HA HB HR Hg Ho H0 H1 H2 H3 H4 H5 H6 H7
      isplitl [H8] <;> iexists _
      · iexact H8
      · iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [Phi_eq1]; exact .rfl

theorem hout1 (c : Dev nD) : (dat1 V c).Φ (Fin.last cfg1.N) ⊢ (Pipeline.ΦA spec1 c : sProp 𝕄) := by
  rw [Phi_eq1, Phi1_later V c _ (by rw [Fin.val_last]; have : cfg1.N = 20 := N_1; omega), PhiA1_eq]
  iintro ⟨⟨HA, HB, HR⟩, Hg⟩
  iframe HR Hg
  isplitl [HA] <;> iexists _
  · iexact HA
  · iexact HB

end Cert.KernelIdeal.Hand

end
-- ==== Proof.KI.R2.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import proofs.«108410_j49581102465153_1_alg».proof.Proof.KI.D2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r2_hz : (![0, 0] : Fin 2 → Nat) = fun _ => 0 := funext fun a => by fin_cases a <;> rfl

theorem r2_read_last {S : Shape} (v : View sig .tc .vmem S .f32) (f : v.ty.Contents (Elt F)) {off : Fin S.rank → Nat}
    (h : off = fun _ => 0) (inb : ∀ a, off a + S.size a ≤ S.size a) (w : S.Idx → Elt F .f32)
    (L : List (View.Piece (Elt F) S .f32)) :
    v.read (Elt F) (v.writes (Elt F) f ((⟨Rect.unit off S.size inb, w⟩ : View.Piece (Elt F) S .f32) :: L)) = w :=
  (View.read_writes_eq_canon v f _ (fun y => ⟨_, List.mem_cons_self, View.mem_set_unit_zero h inb y⟩)).trans
    (View.canon_cons_unit_zero h inb w L)

abbrev r2_cond0 (i : grid2.Coords) : Prop := (Scalar.cmpi .ne (Scalar.extui (Scalar.cmpi .eq (BitVec.ofNat 32 (i 0).val) 0#32)) 0#32) = 1#1
theorem r2_hcond0 : ∀ t : Fin cfg2.N, r2_cond0 (grid2.coords t) ↔ t.val = 0 :=
  (by decide +kernel : ∀ t : Fin grid2.N, r2_cond0 (grid2.coords t) ↔ t.val = 0)
abbrev r2_cond1 (i : grid2.Coords) : Prop := k2_cond2 i = 1#1
theorem r2_hcond1 : ∀ t : Fin cfg2.N, r2_cond1 (grid2.coords t) ↔ t.val = 19 :=
  (by decide +kernel : ∀ t : Fin grid2.N, r2_cond1 (grid2.coords t) ↔ t.val = 19)

set_option maxHeartbeats 1500000 in
-- One run of the body for all control cases: a buffer a conditional stores into ends at the stored value where the condition holds and at the value found otherwise.
theorem r2_run (c : Dev nD) (i : grid2.Coords) {arg1 : Memref sig .tc .vmem S5000x128 .f32} {harg1 : arg1.IsWhole} {arg2 : Memref sig .tc .vmem S1x128 .f32} {harg2 : arg2.IsWhole} {arg3 : Memref sig .tc .vmem S1x128 .f32} {harg3 : arg3.IsWhole} {arg4 : Memref sig .tc .vmem S1x128 .f32} {harg4 : arg4.IsWhole} {arg5 : Memref sig .tc .vmem S1x128 .f32} {harg5 : arg5.IsWhole} {arg6 : Memref sig .tc .vmem S5000x128 .f32} {harg6 : arg6.IsWhole} {arg7 : Memref sig .tc .vmem S1x128 .f32} {harg7 : arg7.IsWhole} {arg8 : Memref sig .tc .vmem S1x128 .f32} {harg8 : arg8.IsWhole} {arg9 : Memref sig .tc .vmem S1x128 .f32} {harg9 : arg9.IsWhole} {arg10 : Memref sig .tc .vmem S1x128 .f32} {harg10 : arg10.IsWhole}
    (h01 : r2_cond0 i → ¬r2_cond1 i) (x0 : Vec F S5000x128 .f32) (x1 x2 x3 x4 : Vec F S1x128 .f32) (d6 : Vec F S5000x128 .f32) (d7 d8 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare d8 ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay6 x0 x1 x2 x3 x4)
            ∗ owns (c : Thread nD τ) arg7 fullShare (if r2_cond1 i then k2_pay2 (k2_pay7 x0 x1 x2 x3 x4 (if r2_cond0 i then k2_pay4 else s0)) else d7)
            ∗ owns (c : Thread nD τ) arg8 fullShare (if r2_cond1 i then k2_pay3 (k2_pay7 x0 x1 x2 x3 x4 (if r2_cond0 i then k2_pay4 else s0)) (k2_pay1 (k2_pay6 x0 x1 x2 x3 x4) (if r2_cond0 i then k2_pay5 else s1)) else d8)
            ∗ owns (c : Thread nD τ) arg9 fullShare (k2_pay7 x0 x1 x2 x3 x4 (if r2_cond0 i then k2_pay4 else s0)) ∗ owns (c : Thread nD τ) arg10 fullShare (k2_pay1 (k2_pay6 x0 x1 x2 x3 x4) (if r2_cond0 i then k2_pay5 else s1))) -∗ K ⟨⟩))
      ⊢ wp frame (wpE (defs₀ (F := F)) Variants.none c none) E (cc2__bn_relu_stats_kernel i arg1 harg1 arg2 harg2 arg3 harg3 arg4 harg4 arg5 harg5 arg6 harg6 arg7 harg7 arg8 harg8 arg9 harg9 arg10 harg10) K := by
  by_cases hc0 : r2_cond0 i <;> by_cases hc1 : r2_cond1 i <;> first | exact absurd hc1 (h01 hc0) | skip
  all_goals
    (first | rw [if_pos hc0, if_pos hc0] | rw [if_neg hc0, if_neg hc0]); (first | rw [if_pos hc1, if_pos hc1] | rw [if_neg hc1, if_neg hc1])
    simp only [cc2__bn_relu_stats_kernel_eq_skeleton]; unfold cc2__bn_relu_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    isplitl [H5]; iexists _; isplitr; swap; iexact H5; ipureintro; rotate_left
    isplitl [H6]; iexists _; isplitr; swap; iexact H6; ipureintro; rotate_left
    isplitl [H7]; iexists _; isplitr; swap; iexact H7; ipureintro; rotate_left
    isplitl [H8]; iexists _; isplitr; swap; iexact H8; ipureintro; rotate_left
    isplitl [H9]; iexists _; isplitr; swap; iexact H9; ipureintro; rotate_left
    iexists _; isplitr; swap; iexact H10; ipureintro; rotate_left
    iterate 5 exact Memref.IsWhole.read_unread _ _
    all_goals
      (try sl_unfold_words)
      first | (refine (r2_read_last _ _ r2_hz _ _ _).trans ?_; simp only [View.readCov_cons_toLoadRect, View.readCov_unit_zero (S := S1x128) _ r2_hz, View.readAt_eq_ld, harg1.read_unread, harg2.read_unread, harg3.read_unread, harg4.read_unread, harg5.read_unread, harg7.read_unread, harg8.read_unread, harg9.read_unread, harg10.read_unread, View.ld_unit_zero (S := S5000x128) r2_hz, View.ld_unit_zero (S := S1x128) r2_hz]) | exact Memref.IsWhole.read_unread _ _

theorem r2_before (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> exact fun d =>
    ((dat2 V c).before_in_eq_fetched _ rfl (fun _ => rfl) (fun _ _ _ => rfl)
      (fun t => by simp only [after2_0, after2_1, after2_2, after2_3, after2_4]; unfold Dat.blockOf iblk2; rw [A_eq2]; try rfl) t d).trans
      (by unfold Dat.fetched Dat.blockOf iblk2; rw [A_eq2]; try rfl)

theorem r2_live : ∀ (t : Fin cfg2.N) (w : Fin cfg2.W), w.val < 6 ∨ r2_cond1 (grid2.coords t) → cfg2.idle w (grid2.coords t) = false := by decide +kernel
theorem r2_idle : ∀ (t : Fin cfg2.N) (w : Fin cfg2.W), 6 ≤ w.val → ¬r2_cond1 (grid2.coords t) → cfg2.idle w (grid2.coords t) = true ∧ (cfg2.win w).flush t = false := by decide +kernel

theorem r2_leaves (c : Dev nD) (t : Fin cfg2.N) (w : Fin cfg2.W) (h : cfg2.idle w (grid2.coords t) = false) :
    (dat2 V c).leavesExact w t = owns (c : Thread nD τ) ((cfg2.win w).stage (cfg2.slots t w)) fullShare ((dat2 V c).after w t) := by
  unfold Dat.leavesExact; rw [h]

-- A small output is left at its final value at the last point and as found elsewhere.
theorem r2_leaves_small (c : Dev nD) (t : Fin cfg2.N) (w : Fin cfg2.W) (hw : 6 ≤ w.val) (d X) (hX : r2_cond1 (grid2.coords t) → X = (dat2 V c).after w t) :
    owns (c : Thread nD τ) ((cfg2.win w).stage (cfg2.slots t w)) fullShare (if r2_cond1 (grid2.coords t) then X else (dat2 V c).before w t d) ⊢ (dat2 V c).leavesExact w t := by
  by_cases h : r2_cond1 (grid2.coords t)
  · rw [if_pos h, hX h, r2_leaves V c t w (r2_live t w (.inr h))]
  · rw [if_neg h, Dat.leavesExact_idle _ w t (r2_idle t w hw h).1 (r2_idle t w hw h).2]
    iintro H; iexists _; iexact H

theorem r2_PhiA_eq (c : Dev nD) :
    (Pipeline.ΦA spec2 c : sProp 𝕄)
      = iprop(iprop(iprop((∃ d, owns (c : Thread nD τ) scA2 fullShare d) ∗ (∃ d, owns (c : Thread nD τ) scB2 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scA2, scB2, owns_whole]; try rfl

-- Before any point the accumulators are owned at some pair, which past the first point is the running sums so far.
theorem r2_Phi_open (c : Dev nD) (n : ℕ) :
    Phi2 V c n ⊢ iprop(∃ s : Vec F S1x128 .f32 × Vec F S1x128 .f32, ⌜n ≠ 0 → s = acc2 V c (n - 1)⌝ ∗ owns (c : Thread nD τ) scA2 fullShare s.1 ∗ owns (c : Thread nD τ) scB2 fullShare s.2
      ∗ Pipeline.scopedRestBut (Ix := Unit) (Name := ℕ) (U := UR sig nD τ) (Lvl := ℕ) (Val := Elt F) spec2 c [cc2_scratch0, cc2_scratch1] ∗ (∃ r, prngReg c r)) := by
  cases n with
  | zero =>
    rw [show Phi2 V c 0 = _ from r2_PhiA_eq c]
    iintro ⟨⟨⟨⟨%a, HA⟩, %b, HB⟩, HR⟩, Hg⟩
    iexists (a, b); iframe; ipureintro; exact fun h => absurd rfl h
  | succ n =>
    unfold Phi2; iintro ⟨⟨HA, HB, HR⟩, Hg⟩
    iexists _; iframe; ipureintro; exact fun _ => rfl

-- The running sums after a point: its rows' sums over zero at the first point, over the sums so far afterwards.
theorem r2_acc (c : Dev nD) (t : Fin cfg2.N) (s) (hs : t.val ≠ 0 → s = acc2 V c (t.val - 1)) :
    acc2 V c t.val = (k2_pay7 (in2_0 V c t) (in2_1 V c t) (in2_2 V c t) (in2_3 V c t) (in2_4 V c t) (if r2_cond0 (grid2.coords t) then k2_pay4 else s.1),
      k2_pay1 (k2_pay6 (in2_0 V c t) (in2_1 V c t) (in2_2 V c t) (in2_3 V c t) (in2_4 V c t)) (if r2_cond0 (grid2.coords t) then k2_pay5 else s.2)) := by
  by_cases h : t.val = 0
  · rw [if_pos ((r2_hcond0 t).mpr h), if_pos ((r2_hcond0 t).mpr h)]
    obtain ⟨_ | n, hn⟩ := t
    · rfl
    · exact absurd h (Nat.succ_ne_zero _)
  · rw [if_neg (mt (r2_hcond0 t).mp h), if_neg (mt (r2_hcond0 t).mp h), hs h]
    obtain ⟨_ | n, hn⟩ := t
    · exact absurd rfl h
    · exact (acc2.eq_2 V c n).trans (dif_pos hn)

def r2_pre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d)) ∗ (∃ d, owns (c : Thread nD τ) (st2_1 t) fullShare ((dat2 V c).before 1 t d))
    ∗ (∃ d, owns (c : Thread nD τ) (st2_2 t) fullShare ((dat2 V c).before 2 t d)) ∗ (∃ d, owns (c : Thread nD τ) (st2_3 t) fullShare ((dat2 V c).before 3 t d))
    ∗ (∃ d, owns (c : Thread nD τ) (st2_4 t) fullShare ((dat2 V c).before 4 t d)) ∗ (∃ d, owns (c : Thread nD τ) (st2_5 t) fullShare ((dat2 V c).before 5 t d))
    ∗ (∃ d, owns (c : Thread nD τ) (st2_6 t) fullShare ((dat2 V c).before 6 t d)) ∗ (∃ d, owns (c : Thread nD τ) (st2_7 t) fullShare ((dat2 V c).before 7 t d)))

def r2_post (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t ∗ (dat2 V c).leavesExact 7 t)

theorem r2_sound (c : Dev nD) (t : Fin cfg2.N) :
    r2_pre V c t ⊢ wp frame (wpE (defs₀ (F := F)) Variants.none c none) Set.univ (bodyAt2 t) (fun _ => r2_post V c t) := by
  have h01 : r2_cond0 (grid2.coords t) → ¬r2_cond1 (grid2.coords t) := fun h0 h1 => by
    have := (r2_hcond0 t).mp h0; have := (r2_hcond1 t).mp h1; omega
  unfold r2_pre r2_post bodyAt2
  simp only [r2_before V c t]
  rw [show (dat2 V c).owesAt () t.succ = (dat2 V c).owesAt () t.castSucc from rfl, Phi_eq2, Phi_eq2, Fin.coe_castSucc, Fin.val_succ,
    r2_leaves V c t 0 (r2_live t 0 (.inl (by decide))), r2_leaves V c t 1 (r2_live t 1 (.inl (by decide))), r2_leaves V c t 2 (r2_live t 2 (.inl (by decide))),
    r2_leaves V c t 3 (r2_live t 3 (.inl (by decide))), r2_leaves V c t 4 (r2_live t 4 (.inl (by decide))), r2_leaves V c t 5 (r2_live t 5 (.inl (by decide))),
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases (r2_Phi_open V c t.val) $$ HΦ with ⟨%s, %hs, HA, HB, HR, Hg⟩
  iapply (r2_run c (grid2.coords t) h01 (in2_0 V c t) (in2_1 V c t) (in2_2 V c t) (in2_3 V c t) (in2_4 V c t) ((dat2 V c).before 5 t d5) ((dat2 V c).before 6 t d6) ((dat2 V c).before 7 t d7) s.1 s.2 Set.univ _)
  iframe H0 H1 H2 H3 H4 H5 H6 H7 HA HB
  iintro ⟨H0, H1, H2, H3, H4, H5, H6, H7, HA, HB⟩
  rw [Phi2, r2_acc V c t s hs]; unfold z2
  iframe Ho H0 H1 H2 H3 H4 H5 HA HB HR Hg
  isplitl [H6]
  · iapply (r2_leaves_small V c t 6 (by decide) d6 _ fun h => by
      rw [after2_6]; unfold mean2; rw [show 19 = t.val from ((r2_hcond1 t).mp h).symm, r2_acc V c t s hs]) $$ H6
  · iapply (r2_leaves_small V c t 7 (by decide) d7 _ fun h => by
      rw [after2_7]; unfold var2; rw [show 19 = t.val from ((r2_hcond1 t).mp h).symm, r2_acc V c t s hs]) $$ H7

theorem body_obligation2 (c : Dev nD) : BodyObligation (dat2 (F := F) V c) (defs₀ (F := F)) Variants.none () Set.univ := fun t => by
  rw [bigSep_W2, bigSep_W2]
  exact r2_sound V c t

theorem hin2 (c : Dev nD) : (Pipeline.ΦA spec2 c : sProp 𝕄) ⊢ (dat2 V c).Φ 0 := by
  rw [Phi_eq2]; exact .rfl

theorem hout2 (c : Dev nD) : (dat2 V c).Φ (Fin.last cfg2.N) ⊢ (Pipeline.ΦA spec2 c : sProp 𝕄) := by
  rw [Phi_eq2, Fin.val_last, show cfg2.N = 19 + 1 from N_2, Phi2, r2_PhiA_eq]
  iintro ⟨⟨HA, HB, HR⟩, Hg⟩
  iframe HR Hg
  isplitl [HA] <;> iexists _ <;> iassumption

end Cert.KernelIdeal.Hand

end
-- ==== Proof.KI.R3.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import proofs.«108410_j49581102465153_1_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

theorem off00_3 : (![0, 0] : Fin 2 → ℕ) = fun _ => 0 := funext fun a => by fin_cases a <;> rfl

set_option maxHeartbeats 1000000 in
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__bn_relu_final_kernel i arg1 harg1 arg2 harg2 arg3 harg3 arg4 harg4 arg5 harg5 arg6 harg6) K := by
  simp only [cc3__bn_relu_final_kernel_eq_skeleton]; unfold cc3__bn_relu_final_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]; iexists _; iframe H1; ipureintro; rotate_left
  isplitl [H2]; iexists _; iframe H2; ipureintro; rotate_left
  isplitl [H3]; iexists _; iframe H3; ipureintro; rotate_left
  isplitl [H4]; iexists _; iframe H4; ipureintro; rotate_left
  isplitl [H5]; iexists _; iframe H5; ipureintro; rotate_left
  iexists _; iframe H6; ipureintro
  all_goals first | rfl | skip
  rw [View.read_writes_eq_canon _ _ _
      (fun y => ⟨_, List.mem_singleton_self _, View.mem_set_unit_zero off00_3 inb_S5000x128_S5000x128_0_0 y⟩),
    View.canon_unit_zero off00_3]
  simp only [View.readAt_eq_ld, View.ld_unit_zero (S := S5000x128) off00_3, View.ld_unit_zero (S := S1x128) off00_3]

theorem body_obligation3 (c : Dev nD) : BodyObligation (dat3 (F := F) V c) (defs₀ (F := F)) Variants.none () Set.univ := fun t => by
  rw [bigSep_W3, bigSep_W3]
  dsimp only
  show _ ⊢ wp frame _ _ (bodyAt3 t) _
  unfold bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold z3
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

end Cert.KernelIdeal.Hand

end
-- ==== Proof.KI.Run.lean ====
import proofs.«108410_j49581102465153_1_alg».proof.Proof.KI.Fold
import proofs.«108410_j49581102465153_1_alg».proof.Proof.KI.R0
import proofs.«108410_j49581102465153_1_alg».proof.Proof.KI.R1
import proofs.«108410_j49581102465153_1_alg».proof.Proof.KI.R2
import proofs.«108410_j49581102465153_1_alg».proof.Proof.KI.R3
import proofs.«108410_j49581102465153_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem withArrays_keep {cfg : Cfg sig Λ₀} (c : Dev nD) (W : Valuation τ sig (Elt F)) (d : Dat τ (Elt F) Unit ℕ (UR sig nD τ) ℕ cfg c)
    (hinj : Function.Injective (Pipeline.arrRef cfg.spec)) (hA : ∀ w, d.A w = W (Proc.devRef .tc (Pipeline.arrRef cfg.spec w)))
    (r : Ref sig .tc) (h : ∀ w, Pipeline.arrRef cfg.spec w = r → (cfg.win w).isOut = false) :
    Pipeline.withArrays cfg.spec c W (fun w => d.arrAt w cfg.N) (Proc.devRef .tc r) = W (Proc.devRef .tc r) := by
  by_cases e : ∃ w, Pipeline.arrRef cfg.spec w = r
  · obtain ⟨w, rfl⟩ := e
    rw [Pipeline.withArrays_arr _ hinj, d.arrAt_in w (h w rfl), hA]
  · exact Pipeline.withArrays_of_ne _ c _ _ r fun w e' => e ⟨w, e'⟩

abbrev Kept (r : Ref sig .tc) : Prop :=
  ¬ (Proc.devRef .tc r : DevRef τ sig).isScoped ∧ r ∉ hostOps0_W ∧ r ∉ hostOps1_W ∧ r ∉ hostOps2_W ∧ r ∉ hostOps3_W
    ∧ (∀ w, Pipeline.arrRef spec0 w = r → (cfg0.win w).isOut = false) ∧ (∀ w, Pipeline.arrRef spec1 w = r → (cfg1.win w).isOut = false)
    ∧ (∀ w, Pipeline.arrRef spec2 w = r → (cfg2.win w).isOut = false) ∧ (∀ w, Pipeline.arrRef spec3 w = r → (cfg3.win w).isOut = false)

theorem W8_kept (c : Dev nD) (r : Ref sig .tc) (h : Kept r) : W8 m c (Proc.devRef .tc r) = m ((c : Thread nD τ).loc r) := by
  obtain ⟨-, h0, h1, h2, h3, k0, k1, k2, k3⟩ := h
  exact (withArrays_keep c _ (dat3 (V7 m) c) launch3.win.arr_inj (A_eq3 _ c) r k3).trans <|
    (StableHlo.after_of_writes_sub hostOps3 _ hostOps3_writes h3).trans <|
    (withArrays_keep c _ (dat2 (V5 m) c) launch2.win.arr_inj (A_eq2 _ c) r k2).trans <|
    (StableHlo.after_of_writes_sub hostOps2 _ hostOps2_writes h2).trans <|
    (withArrays_keep c _ (dat1 (V3 m) c) launch1.win.arr_inj (A_eq1 _ c) r k1).trans <|
    (StableHlo.after_of_writes_sub hostOps1 _ hostOps1_writes h1).trans <|
    (withArrays_keep c _ (dat0 (V1 m) c) launch0.win.arr_inj (A_eq0 _ c) r k0).trans <|
    StableHlo.after_of_writes_sub hostOps0 _ hostOps0_writes h0

variable (F) in
abbrev cf (p : Fin 4) : Cfg sig Λ₀ := Pipeline.pin (pcfgs (F := F)) adm p
def pdats : (p : Fin 4) → (c : Dev nD) → Dat τ (Elt F) Unit ℕ (UR sig nD τ) ℕ (cf F p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def regOf (p : Fin 4) (lf : Pipeline.LaunchFacts (nD := nD) (τ := τ) cfgs p) (W : Dev nD → Valuation τ sig (Elt F))
    (hb : ∀ c, BodyObligation (pdats m p c) (defs₀ (F := F)) 𝒱₀ () Set.univ)
    (hq : ∀ c w, (pdats m p c).q w = fullShare) (howed : ∀ c t, (pdats m p c).owed t = 0) (hrec : ∀ c, (pdats m p c).recorded 0 = Set.univ)
    (hA : ∀ c w, (pdats m p c).A w = W c (Proc.devRef .tc (Pipeline.arrRef (cf F p).spec w)))
    (hin : ∀ c, (Pipeline.ΦA (cf F p).spec c : sProp 𝕄) ⊢ (pdats m p c).Φ 0)
    (hout : ∀ c, (pdats m p c).Φ (Fin.last _) ⊢ (Pipeline.ΦA (cf F p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig)
    (Pipeline.withArrays (cf F p).spec c (W c) fun w => (pdats m p c).arrAt w (cf F p).N) ∗ R c)
  X c := iprop(∃ r, prngReg c r)
  Y c := iprop(∃ r, prngReg c r)
  Z c := Pipeline.unscopedRest (Ix := Unit) (Name := ℕ) (U := UR sig nD τ) (Lvl := ℕ) (cf F p).spec c (fun b => W c b)
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, %O, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [howed]
    iexists O; isplitr; · ipureintro; exact fun _ _ => Or.inl (hrec c ▸ trivial)
    iexact HO
  hin c := by
    refine BIBase.Entails.trans ?_ (hin c)
    unfold Pipeline.ΦA
    iintro ⟨Hp, -, Hr⟩; isplitl [Hr] <;> iassumption
  hout c := by
    rw [Pipeline.ownSems0_none]
    refine BIBase.Entails.trans (hout c) ?_
    unfold Pipeline.ΦA
    iintro ⟨Hr, Hp⟩; iframe; iempintro
  hexit c := by
    have hinj : Function.Injective (Pipeline.arrRef (cf F p).spec) := lf.win.arr_inj
    unfold Pipeline.Dat.owesAt Pipeline.owesWithin; rw [howed]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => W c b)
      (fun b => Pipeline.withArrays (cf F p).spec c (W c) (fun w => (pdats m p c).arrAt w (cf F p).N) b)
      ((pdats m p c).arrAt · (cf F p).N)
      (fun w => (Pipeline.withArrays_arr (cf F p).spec hinj c (W c) ((pdats m p c).arrAt · (cf F p).N) w).symm)
      (fun b hb => Pipeline.withArrays_of_ne (cf F p).spec c (W c) ((pdats m p c).arrAt · (cf F p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%O, -, HO⟩; iexists O; iexact HO

set_option backward.isDefEq.respectTransparency.types false in
abbrev segs : List (Pipeline.Seg (pcfgs (F := F)) adm (pdats m) () defs₀ 𝒱₀ L lv) :=
  [ .host (hseg hostOps0 hostOps0_sub hostOps0_fresh (W0 m)),
    .region (regOf m 0 launch0 (W1 m) (body_obligation0 (V1 m)) (fun _ _ => rfl) (fun _ _ => rfl) (fun _ => rfl) (A_eq0 (V1 m)) (hin0 (V1 m)) (hout0 (V1 m))),
    .host (hseg hostOps1 hostOps1_sub hostOps1_fresh (W2 m)),
    .region (regOf m 1 launch1 (W3 m) (body_obligation1 (V3 m)) (fun _ _ => rfl) (fun _ _ => rfl) (fun _ => rfl) (A_eq1 (V3 m)) (hin1 (V3 m)) (hout1 (V3 m))),
    .host (hseg hostOps2 hostOps2_sub hostOps2_fresh (W4 m)),
    .region (regOf m 2 launch2 (W5 m) (body_obligation2 (V5 m)) (fun _ _ => rfl) (fun _ _ => rfl) (fun _ => rfl) (A_eq2 (V5 m)) (hin2 (V5 m)) (hout2 (V5 m))),
    .host (hseg hostOps3 hostOps3_sub hostOps3_fresh (W6 m)),
    .region (regOf m 3 launch3 (W7 m) (body_obligation3 (V7 m)) (fun _ _ => rfl) (fun _ _ => rfl) (fun _ => rfl) (A_eq3 (V7 m)) (fun _ => .rfl) (fun _ => .rfl)) ]
theorem main_run (c : Dev nD) : main (F := F) c = Pipeline.Seg.run (segs m) := (main_chain c).trans (by chain_rfl)

set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      iframe)
    (hQ := fun s h => h)

abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)

theorem result_mem (ρ : Dev nD → PrngReg) : θ_run defs (onTc (τ := τ) (main (F := F))) ⟨m, fun _ => 0, ρ⟩ (fun r => ∀ c : Dev nD,
      r.2.mem ((c.tc : Thread nD τ).loc main_v21) = (dat3 (V7 m) c).arrAt 5 cfg3.N ∧ ArgsKept m r.2 c) :=
  (θ_run defs _ _).mono (fun r h c =>
    have k (b : Ref sig .tc) (hb : Kept b) : r.2.mem ((c.tc : Thread nD τ).loc b) = m ((c.tc : Thread nD τ).loc b) :=
      (h c _ (mem_uc b hb.1)).trans (W8_kept m c b hb)
    ⟨(h c _ (mem_uc main_v21 (by decide))).trans (W8_arr m c 5), k _ (by decide), k _ (by decide), k _ (by decide), k _ (by decide),
      k _ (by decide), k _ (by decide), k _ (by decide), k _ (by decide), k _ (by decide), k _ (by decide), k _ (by decide),
      k _ (by decide), k _ (by decide)⟩) (run_all m ρ)

theorem frame (ρ : Dev nD → PrngReg) : θ_run defs (onTc (τ := τ) (main (F := F))) ⟨m, fun _ => 0, ρ⟩ (fun r => ∀ c : Dev nD, ArgsKept m r.2 c) :=
  (θ_run defs _ _).mono (fun r h c => (h c).2) (result_mem m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev cN : EReal := Ideal.ofBits .f32 0x47C35000#32

abbrev cEps : EReal := Ideal.ofBits .f32 0x3727C5AC#32

abbrev Mat (n d : ℕ) := Fin n → Fin d → EReal
abbrev Row (d : ℕ) := Fin d → EReal

abbrev mat {n d : ℕ} (v : (⟨2, ![n, d]⟩ : Shape).Idx → EReal) : Mat n d := fun r j => v (ix2 r j)
abbrev row {d : ℕ} (v : (⟨2, ![1, d]⟩ : Shape).Idx → EReal) : Row d := fun j => v (ix2 0 j)
abbrev vec {d : ℕ} (v : (⟨1, ![d]⟩ : Shape).Idx → EReal) : Row d := fun j => v (ix1 j)

variable {n k d : ℕ}

def lin (H : Mat n k) (W : Mat k d) (b : Row d) : Mat n d := fun r j => (∑ q, H r q * W q j) + b j

def colSum (Z : Mat n d) : Row d := fun j => ∑ r, Z r j

def mean (Z : Mat n d) : Row d := fun j => Ideal.div (colSum Z j) cN

def varK (Z : Mat n d) : Row d :=
  fun j => Ideal.div (colSum (fun r j => Z r j * Z r j) j) cN - mean Z j * mean Z j

def varR (Z : Mat n d) : Row d :=
  fun j => Ideal.div (colSum (fun r j => (Z r j - mean Z j) * (Z r j - mean Z j)) j) cN

def bnrelu (Z : Mat n d) (mu var g be : Row d) : Mat n d :=
  fun r j => max (g j * (Z r j - mu j) * Ideal.rsqrt (var j + cEps) + be j) 0

def outK (X A : Mat n k) (W1 : Mat k d) (b1 g1 be1 : Row d) (W2 : Mat d d) (b2 g2 be2 g3 be3 : Row d) : Mat n d :=
  let Z1 := lin (fun r q => X r q + A r q) W1 b1
  let H1 := bnrelu Z1 (mean Z1) (varK Z1) g1 be1
  let Z2 := lin H1 W2 b2
  let H2 := bnrelu Z2 (mean Z2) (varK Z2) g2 be2
  bnrelu H2 (mean H2) (varK H2) g3 be3

def outR (X A : Mat n k) (W1 : Mat k d) (b1 g1 be1 : Row d) (W2 : Mat d d) (b2 g2 be2 g3 be3 : Row d) : Mat n d :=
  let Z1 := lin (fun r q => X r q + A r q) W1 b1
  let H1 := bnrelu Z1 (mean Z1) (varR Z1) g1 be1
  let Z2 := lin H1 W2 b2
  let H2 := bnrelu Z2 (mean Z2) (varR Z2) g2 be2
  bnrelu H2 (mean H2) (varR H2) g3 be3

def IsReal (a : EReal) : Prop := ∃ x : ℝ, a = (x : EReal)

end Cert.Spec

end
-- ==== Proof.LibKeepdims.lean ====
import proofs.«108410_j49581102465153_1_alg».proof.Proof.Spec
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx
open scoped BigOperators

-- A sum of an `[a, b]` array over its first axis reads, at column `j`, the sum down the column.
theorem colReduce_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans (Finset.sum_congr rfl fun k _ => ?_)
  refine congrArg src (funext fun ax => Fin.ext ?_)
  rw [Shape.Reduces.lift_val]
  match ax with
  | ⟨0, _⟩ => rfl
  | ⟨1, _⟩ => rfl

variable {M : Type*} [AddCommMonoid M]

-- The rows below `B (n + 1)` are those below `B n` and the `B` after them.
theorem sum_range_block (B : ℕ) (f : ℕ → M) (n : ℕ) :
    ∑ r ∈ Finset.range (B * (n + 1)), f r = ∑ r ∈ Finset.range (B * n), f r + ∑ p : Fin B, f (B * n + p.val) := by
  rw [Nat.mul_succ, Finset.sum_range_add]
  exact congrArg _ (Finset.sum_range fun x => f (B * n + x))

-- A function on `Fin R` continued by zero to every natural number.
def extN {R : ℕ} (Z : Fin R → M) (r : ℕ) : M := if h : r < R then Z ⟨r, h⟩ else 0

theorem extN_of_lt {R : ℕ} (Z : Fin R → M) (r : ℕ) (h : r < R) : extN Z r = Z ⟨r, h⟩ := dif_pos h

-- A running sum over `N` blocks of `B` rows, started from zero and fed block `t`'s rows at step `t`, ends at the sum of all `B N` rows.
theorem sum_of_run {R : ℕ} (B N : ℕ) (hR : B * N = R) (Z : Fin R → M) (z : (t : ℕ) → t < N → Fin B → M)
    (hz : ∀ t h p (r : Fin R), r.val = B * t + p.val → z t h p = Z r) (s : ℕ → M)
    (h0 : ∀ h, s 0 = 0 + ∑ p, z 0 h p) (hs : ∀ n h, s (n + 1) = s n + ∑ p, z (n + 1) h p)
    (n : ℕ) (hn : n + 1 = N) : s n = ∑ r, Z r := by
  subst hR hn
  have hf : ∀ t (h : t < n + 1) (p : Fin B), z t h p = extN Z (B * t + p.val) := fun t h p => by
    have hlt : B * t + p.val < B * (n + 1) :=
      lt_of_lt_of_le (by rw [Nat.mul_succ]; exact Nat.add_lt_add_left p.isLt _) (Nat.mul_le_mul_left B h)
    exact (hz t h p ⟨_, hlt⟩ rfl).trans (extN_of_lt Z _ hlt).symm
  have key : ∀ m (h : m < n + 1), s m = ∑ r ∈ Finset.range (B * (m + 1)), extN Z r := by
    intro m
    induction m with
    | zero =>
      intro h
      rw [h0 h, sum_range_block, Nat.mul_zero, Finset.sum_range_zero]
      exact congrArg _ (Finset.sum_congr rfl fun p _ => hf 0 h p)
    | succ m ih =>
      intro h
      rw [hs m h, ih (Nat.lt_of_succ_lt h), sum_range_block _ _ (m + 1)]
      exact congrArg _ (Finset.sum_congr rfl fun p _ => hf (m + 1) h p)
  rw [key n (Nat.lt_succ_self n), Finset.sum_range]
  exact Finset.sum_congr rfl fun r _ => extN_of_lt Z r.val r.isLt

end Idealize.ShloMosaic.Keepdims

end
-- ==== Proof.LibPlainDot.lean ====
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => rfl
    | ⟨1, _⟩ => exact hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact hk
    | ⟨1, _⟩ => rfl)
  rw [el, er]

theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.KI.Val0.lean ====
import proofs.«108410_j49581102465153_1_alg».proof.Proof.KI.D0
import proofs.«108410_j49581102465153_1_alg».proof.Proof.Spec
import proofs.«108410_j49581102465153_1_alg».proof.Proof.LibKeepdims
import proofs.«108410_j49581102465153_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.Keepdims
open Cert.KernelIdeal Cert.KernelIdeal.Gen
open scoped BigOperators

variable (V : (c : Dev nD) → (b : Ref sig .tc) → Buf (Elt Ideal) ((c : Thread nD τ).loc b))

abbrev mX0 (c : Dev nD) : Spec.Mat 100000 32 := Spec.mat (V c main_arg0 : S100000x32.Idx → EReal)
abbrev mA0 (c : Dev nD) : Spec.Mat 100000 32 := Spec.mat (V c main_v9 : S100000x32.Idx → EReal)
abbrev mW0 (c : Dev nD) : Spec.Mat 32 128 := Spec.mat (V c main_arg3 : S32x128.Idx → EReal)
abbrev mB0 (c : Dev nD) : Spec.Row 128 := Spec.row (V c main_v10 : S1x128.Idx → EReal)
abbrev mZ0 (c : Dev nD) : Spec.Mat 100000 128 := Spec.lin (fun r q => mX0 V c r q + mA0 V c r q) (mW0 V c) (mB0 V c)

theorem k0_pay5_apply (x a : Vec Ideal S5000x32 .f32) (w : Vec Ideal S32x128 .f32) (b : Vec Ideal S1x128 .f32) (p : Fin 5000) (j : Fin 128) :
    k0_pay5 x a w b (ix2 p j) = (∑ q : Fin 32, (x (ix2 p q) + a (ix2 p q)) * w (ix2 q j)) + b (ix2 0 j) := by
  unfold k0_pay5
  simp only [shapeCast_self]
  rw [addf_apply, show dot_S5000x32_S32x128_S5000x128_1_0_0_1_n_n = DotDims.plain 5000 32 128 from rfl, broadcastTo_1b_ab_apply]
  simp only [matmul]
  rw [PlainDot.matmul_zero_apply 5000 32 128]
  rfl

theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (c : Dev nD) (t : Fin cfg0.N) (j : Fin 128)

-- The rows computed at point `t` are rows `5000 t`, …, `5000 t + 4999` of the whole linear layer.
theorem z0_apply (p : Fin 5000) (r : Fin 100000) (hr : r.val = 5000 * t.val + p.val) :
    z0 V c t (ix2 p j) = mZ0 V c r j := by
  obtain ⟨a0, a1, b0, b1, c0, c1, d0, d1, -⟩ := idx0 t
  unfold z0
  rw [k0_pay5_apply]
  refine congrArg₂ (· + ·) (Finset.sum_congr rfl fun q _ => congrArg₂ (· * ·) (congrArg₂ (· + ·) ?_ ?_) ?_) ?_
  · refine congrArg (V c main_arg0) (Shape.idx_ext₂ ?_ ?_)
    · show win0_0.index t (0 : Fin 2) * 5000 + 1 * p.val = r.val; omega
    · show win0_0.index t (1 : Fin 2) * 32 + 1 * q.val = q.val; omega
  · refine congrArg (V c main_v9) (Shape.idx_ext₂ ?_ ?_)
    · show win0_1.index t (0 : Fin 2) * 5000 + 1 * p.val = r.val; omega
    · show win0_1.index t (1 : Fin 2) * 32 + 1 * q.val = q.val; omega
  · refine congrArg (V c main_arg3) (Shape.idx_ext₂ ?_ ?_)
    · show win0_2.index t (0 : Fin 2) * 32 + 1 * q.val = q.val; omega
    · show win0_2.index t (1 : Fin 2) * 128 + 1 * j.val = j.val; omega
  · refine congrArg (V c main_v10) (Shape.idx_ext₂ ?_ ?_)
    · show win0_3.index t (0 : Fin 2) * 1 + 1 * 0 = 0; omega
    · show win0_3.index t (1 : Fin 2) * 128 + 1 * j.val = j.val; omega

theorem flushed0_4_eq :
    (dat0 V c).flushed 4 t = ((cfg0.win 4).blk t).view.read (Elt Ideal) (fun i : S100000x128.Idx => mZ0 V c (i 0) (i 1)) := by
  show (cfg0.win 4).cut (grid0.coords t) ((dat0 V c).after 4 t) = _
  rw [after0_4]
  funext y
  obtain ⟨p, j, rfl⟩ : ∃ (p : Fin 5000) (j : Fin 128), y = ix2 p j := ⟨y 0, y 1, eq_ix2 (n0 := 5000) (n1 := 128) y⟩
  obtain ⟨-, -, -, -, -, -, -, -, e0, e1, -⟩ := idx0 t
  show z0 V c t (ix2 p j) = mZ0 V c ((((cfg0.win 4).blk t).view.emb (ix2 p j)) 0) ((((cfg0.win 4).blk t).view.emb (ix2 p j)) 1)
  rw [show (((cfg0.win 4).blk t).view.emb (ix2 p j)) 1 = j from
    Fin.ext (by show win0_4.index t (1 : Fin 2) * 128 + 1 * j.val = j.val; omega)]
  exact z0_apply V c t j p _ (by show win0_4.index t (0 : Fin 2) * 5000 + 1 * p.val = _; omega)

-- Row `r` is in the block of point `r / 5000`.
theorem cover0_4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_4 t, ?_⟩
  show i ∈ ((View.whole main_v11_0).slice (win0_4.rect t)).set
  rw [View.set_slice_whole, Rect.mem_set_unit]
  obtain ⟨-, -, -, -, -, -, -, -, e0, e1, -⟩ := idx0 t
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

theorem final0_z : ((dat0 V c).arrAt 4 cfg0.N : S100000x128.Idx → EReal) = fun i => mZ0 V c (i 0) (i 1) :=
  (dat0 V c).arrAt_eq_of_cover 4 (fun i : S100000x128.Idx => mZ0 V c (i 0) (i 1)) (fun t _ => flushed0_4_eq V c t) cover0_4

theorem k0_pay6_apply (x a : Vec Ideal S5000x32 .f32) (w : Vec Ideal S32x128 .f32) (b s : Vec Ideal S1x128 .f32) :
    k0_pay6 x a w b s (ix2 0 j) = s (ix2 0 j) + ∑ p : Fin 5000, k0_pay5 x a w b (ix2 p j) := by
  unfold k0_pay6
  simp only [shapeCast_self]
  rw [addf_apply, shapeCast_a_1a_apply]
  exact congrArg _ (colReduce_apply _ _ _ _ _ j)

theorem k0_pay7_apply (x a : Vec Ideal S5000x32 .f32) (w : Vec Ideal S32x128 .f32) (b s : Vec Ideal S1x128 .f32) :
    k0_pay7 x a w b s (ix2 0 j) = s (ix2 0 j) + ∑ p : Fin 5000, k0_pay5 x a w b (ix2 p j) * k0_pay5 x a w b (ix2 p j) := by
  unfold k0_pay7
  simp only [shapeCast_self]
  rw [addf_apply, shapeCast_a_1a_apply]
  exact congrArg _ (colReduce_apply _ _ _ _ _ j)

theorem k0_pay3_apply : k0_pay3 (F := Ideal) (ix2 0 j) = 0 := by
  unfold k0_pay3
  simp only [shapeCast_self]
  exact Ideal.ofBits_zero_f32

theorem k0_pay4_apply : k0_pay4 (F := Ideal) (ix2 0 j) = 0 := by
  unfold k0_pay4
  simp only [shapeCast_self]
  exact Ideal.ofBits_zero_f32

-- After the last point the two accumulators hold the column sums, and the column sums of squares, of the whole layer.
theorem colSum0 : (acc0 V c 19).1 (ix2 0 j) = Spec.colSum (mZ0 V c) j :=
  sum_of_run 5000 cfg0.N (by rw [show cfg0.N = 20 from N_0]) (fun r => mZ0 V c r j) (fun t h p => z0 V c ⟨t, h⟩ (ix2 p j))
    (fun t h p r hr => z0_apply V c ⟨t, h⟩ j p r hr) (fun n => (acc0 V c n).1 (ix2 0 j))
    (fun h => by show (acc0 V c 0).1 (ix2 0 j) = _; rw [acc0]; dsimp only; rw [k0_pay6_apply, k0_pay3_apply]; rfl)
    (fun n h => by show (acc0 V c (n + 1)).1 (ix2 0 j) = _; rw [acc0, dif_pos h]; dsimp only; rw [k0_pay6_apply]; rfl) 19 N_0.symm

theorem colSumSq0 : (acc0 V c 19).2 (ix2 0 j) = Spec.colSum (fun r j => mZ0 V c r j * mZ0 V c r j) j :=
  sum_of_run 5000 cfg0.N (by rw [show cfg0.N = 20 from N_0]) (fun r => mZ0 V c r j * mZ0 V c r j) (fun t h p => z0 V c ⟨t, h⟩ (ix2 p j) * z0 V c ⟨t, h⟩ (ix2 p j))
    (fun t h p r hr => by rw [z0_apply V c ⟨t, h⟩ j p r hr]) (fun n => (acc0 V c n).2 (ix2 0 j))
    (fun h => by show (acc0 V c 0).2 (ix2 0 j) = _; rw [acc0]; dsimp only; rw [k0_pay7_apply, k0_pay4_apply]; rfl)
    (fun n h => by show (acc0 V c (n + 1)).2 (ix2 0 j) = _; rw [acc0, dif_pos h]; dsimp only; rw [k0_pay7_apply]; rfl) 19 N_0.symm

theorem mean0_apply : mean0 V c (ix2 0 j) = Spec.mean (mZ0 V c) j :=
  congrArg (Ideal.div · Spec.cN) (colSum0 V c j)

theorem var0_apply : var0 V c (ix2 0 j) = Spec.varK (mZ0 V c) j := by
  show Ideal.div ((acc0 V c 19).2 (ix2 0 j)) Spec.cN - Ideal.div ((acc0 V c 19).1 (ix2 0 j)) Spec.cN * Ideal.div ((acc0 V c 19).1 (ix2 0 j)) Spec.cN = _
  rw [colSum0, colSumSq0]
  rfl

theorem flushed0_5_eq :
    (dat0 V c).flushed 5 t = ((cfg0.win 5).blk t).view.read (Elt Ideal) (fun i : S1x128.Idx => Spec.mean (mZ0 V c) (i 1)) := by
  show (cfg0.win 5).cut (grid0.coords t) ((dat0 V c).after 5 t) = _
  rw [after0_5]
  funext y
  obtain ⟨u, j, rfl⟩ : ∃ (u : Fin 1) (j : Fin 128), y = ix2 u j := ⟨y 0, y 1, eq_ix2 (n0 := 1) (n1 := 128) y⟩
  obtain rfl : u = 0 := Subsingleton.elim _ _
  obtain ⟨-, -, -, -, -, -, -, -, -, -, e0, e1, -⟩ := idx0 t
  show _ = Spec.mean (mZ0 V c) ((((cfg0.win 5).blk t).view.emb (ix2 0 j)) 1)
  rw [show (((cfg0.win 5).blk t).view.emb (ix2 0 j)) 1 = j from
    Fin.ext (by show win0_5.index t (1 : Fin 2) * 128 + 1 * j.val = j.val; omega)]
  exact mean0_apply V c j

theorem cover0_5 (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 20 := N_0
  obtain ⟨t, ht⟩ : ∃ t : Fin cfg0.N, t.val = 19 := ⟨⟨19, by rw [hN]; omega⟩, rfl⟩
  refine ⟨t, (flush0_5 t).mpr (by omega), ?_⟩
  show i ∈ ((View.whole main_v11_1).slice (win0_5.rect t)).set
  rw [View.set_slice_whole, Rect.mem_set_unit]
  obtain ⟨-, -, -, -, -, -, -, -, -, -, e0, e1, -⟩ := idx0 t
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 128 ≤ (i 1).val ∧ (i 1).val < win0_5.index t (1 : Fin 2) * 128 + 128; omega

theorem flushed0_6_eq :
    (dat0 V c).flushed 6 t = ((cfg0.win 6).blk t).view.read (Elt Ideal) (fun i : S1x128.Idx => Spec.varK (mZ0 V c) (i 1)) := by
  show (cfg0.win 6).cut (grid0.coords t) ((dat0 V c).after 6 t) = _
  rw [after0_6]
  funext y
  obtain ⟨u, j, rfl⟩ : ∃ (u : Fin 1) (j : Fin 128), y = ix2 u j := ⟨y 0, y 1, eq_ix2 (n0 := 1) (n1 := 128) y⟩
  obtain rfl : u = 0 := Subsingleton.elim _ _
  obtain ⟨-, -, -, -, -, -, -, -, -, -, -, -, e0, e1⟩ := idx0 t
  show _ = Spec.varK (mZ0 V c) ((((cfg0.win 6).blk t).view.emb (ix2 0 j)) 1)
  rw [show (((cfg0.win 6).blk t).view.emb (ix2 0 j)) 1 = j from
    Fin.ext (by show win0_6.index t (1 : Fin 2) * 128 + 1 * j.val = j.val; omega)]
  exact var0_apply V c j

theorem cover0_6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 20 := N_0
  obtain ⟨t, ht⟩ : ∃ t : Fin cfg0.N, t.val = 19 := ⟨⟨19, by rw [hN]; omega⟩, rfl⟩
  refine ⟨t, (flush0_6 t).mpr (by omega), ?_⟩
  show i ∈ ((View.whole main_v11_2).slice (win0_6.rect t)).set
  rw [View.set_slice_whole, Rect.mem_set_unit]
  obtain ⟨-, -, -, -, -, -, -, -, -, -, -, -, e0, e1⟩ := idx0 t
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega

theorem final0_mean : ((dat0 V c).arrAt 5 cfg0.N : S1x128.Idx → EReal) = fun i => Spec.mean (mZ0 V c) (i 1) :=
  (dat0 V c).arrAt_eq_of_cover 5 (fun i : S1x128.Idx => Spec.mean (mZ0 V c) (i 1)) (fun t _ => flushed0_5_eq V c t) cover0_5

theorem final0_var : ((dat0 V c).arrAt 6 cfg0.N : S1x128.Idx → EReal) = fun i => Spec.varK (mZ0 V c) (i 1) :=
  (dat0 V c).arrAt_eq_of_cover 6 (fun i : S1x128.Idx => Spec.varK (mZ0 V c) (i 1)) (fun t _ => flushed0_6_eq V c t) cover0_6

end Cert.KernelIdeal.Hand

end
-- ==== Proof.KI.Val1.lean ====
import proofs.«108410_j49581102465153_1_alg».proof.Proof.KI.D1
import proofs.«108410_j49581102465153_1_alg».proof.Proof.Spec
import proofs.«108410_j49581102465153_1_alg».proof.Proof.LibKeepdims
import proofs.«108410_j49581102465153_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.Keepdims
open Cert.KernelIdeal Cert.KernelIdeal.Gen
open scoped BigOperators

variable (V : (c : Dev nD) → (b : Ref sig .tc) → Buf (Elt Ideal) ((c : Thread nD τ).loc b))

abbrev mZin1 (c : Dev nD) : Spec.Mat 100000 128 := Spec.mat (V c main_v11_0)
abbrev mMu1 (c : Dev nD) : Spec.Row 128 := Spec.row (V c main_v11_1)
abbrev mVa1 (c : Dev nD) : Spec.Row 128 := Spec.row (V c main_v11_2)
abbrev mG1 (c : Dev nD) : Spec.Row 128 := Spec.row (V c main_v12)
abbrev mBe1 (c : Dev nD) : Spec.Row 128 := Spec.row (V c main_v13)
abbrev mW1 (c : Dev nD) : Spec.Mat 128 128 := Spec.mat (V c main_arg7)
abbrev mB1 (c : Dev nD) : Spec.Row 128 := Spec.row (V c main_v14)
abbrev mH1 (c : Dev nD) : Spec.Mat 100000 128 := Spec.bnrelu (mZin1 V c) (mMu1 V c) (mVa1 V c) (mG1 V c) (mBe1 V c)
abbrev mZ1 (c : Dev nD) : Spec.Mat 100000 128 := Spec.lin (mH1 V c) (mW1 V c) (mB1 V c)

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

variable (c : Dev nD) (t : Fin cfg1.N) (j : Fin 128)

theorem in1_0_apply1 (p : Fin 5000) (q : Fin 128) (r : Fin 100000) (hr : r.val = 5000 * t.val + p.val) :
    in1_0 V c t (ix2 p q) = mZin1 V c r q := by
  obtain ⟨e0, e1, -⟩ := idx_facts1 t
  exact congrArg (V c main_v11_0) (Shape.idx_ext₂ (by show win1_0.index t (0 : Fin 2) * 5000 + 1 * p.val = r.val; omega)
    (by show win1_0.index t (1 : Fin 2) * 128 + 1 * q.val = q.val; omega))

theorem in1_1_apply1 (q : Fin 128) : in1_1 V c t (ix2 0 q) = mMu1 V c q := by
  obtain ⟨-, -, e0, e1, -⟩ := idx_facts1 t
  exact congrArg (V c main_v11_1) (Shape.idx_ext₂ (by show win1_1.index t (0 : Fin 2) * 1 + 1 * 0 = 0; omega)
    (by show win1_1.index t (1 : Fin 2) * 128 + 1 * q.val = q.val; omega))

theorem in1_2_apply1 (q : Fin 128) : in1_2 V c t (ix2 0 q) = mVa1 V c q := by
  obtain ⟨-, -, -, -, e0, e1, -⟩ := idx_facts1 t
  exact congrArg (V c main_v11_2) (Shape.idx_ext₂ (by show win1_2.index t (0 : Fin 2) * 1 + 1 * 0 = 0; omega)
    (by show win1_2.index t (1 : Fin 2) * 128 + 1 * q.val = q.val; omega))

theorem in1_3_apply1 (q : Fin 128) : in1_3 V c t (ix2 0 q) = mG1 V c q := by
  obtain ⟨-, -, -, -, -, -, e0, e1, -⟩ := idx_facts1 t
  exact congrArg (V c main_v12) (Shape.idx_ext₂ (by show win1_3.index t (0 : Fin 2) * 1 + 1 * 0 = 0; omega)
    (by show win1_3.index t (1 : Fin 2) * 128 + 1 * q.val = q.val; omega))

theorem in1_4_apply1 (q : Fin 128) : in1_4 V c t (ix2 0 q) = mBe1 V c q := by
  obtain ⟨-, -, -, -, -, -, -, -, e0, e1, -⟩ := idx_facts1 t
  exact congrArg (V c main_v13) (Shape.idx_ext₂ (by show win1_4.index t (0 : Fin 2) * 1 + 1 * 0 = 0; omega)
    (by show win1_4.index t (1 : Fin 2) * 128 + 1 * q.val = q.val; omega))

theorem in1_6_apply1 (q : Fin 128) : in1_6 V c t (ix2 0 q) = mB1 V c q := by
  obtain ⟨-, -, -, -, -, -, -, -, -, -, -, -, e0, e1, -⟩ := idx_facts1 t
  exact congrArg (V c main_v14) (Shape.idx_ext₂ (by show win1_6.index t (0 : Fin 2) * 1 + 1 * 0 = 0; omega)
    (by show win1_6.index t (1 : Fin 2) * 128 + 1 * q.val = q.val; omega))

theorem in1_5_apply1 (k q : Fin 128) : in1_5 V c t (ix2 k q) = mW1 V c k q := by
  obtain ⟨-, -, -, -, -, -, -, -, -, -, e0, e1, -⟩ := idx_facts1 t
  exact congrArg (V c main_arg7) (Shape.idx_ext₂ (by show win1_5.index t (0 : Fin 2) * 128 + 1 * k.val = k.val; omega)
    (by show win1_5.index t (1 : Fin 2) * 128 + 1 * q.val = q.val; omega))

theorem row_bcast1 (v : Vec Ideal S1x128 .f32) (p : Fin 5000) (q : Fin 128) :
    broadcastTo S5000x128 (shapeCast S1x128 v shapeCasts_S1x128_S1x128) broadcasts_S1x128_S5000x128 (ix2 p q) = v (ix2 0 q) := by
  rw [shapeCast_self]
  exact broadcastTo_1b_ab_apply v _ p q

theorem rsqrt_apply1 {s : Shape} {φ : FTy} (a : FVec Ideal s φ) (i : s.Idx) : rsqrt a i = Ideal.rsqrt (a i) := rfl

theorem matmul_apply1 (x : FVec Ideal S5000x128 .bf16) (w : FVec Ideal S128x128 .bf16) (p : Fin 5000) :
    matmul dot_S5000x128_S128x128_S5000x128_1_0_0_1_n_n none x w (constant S5000x128 .f32 0x00000000#32) (ix2 p j)
      = ∑ k : Fin 128, x (ix2 p k) * w (ix2 k j) :=
  PlainDot.matmul_zero_apply 5000 128 128 x w (ix2 p j)

theorem pay7_apply1 (x : Vec Ideal S5000x128 .f32) (mu va g be : Vec Ideal S1x128 .f32) (W : Vec Ideal S128x128 .f32)
    (b : Vec Ideal S1x128 .f32) (p : Fin 5000) :
    k1_pay7 x mu va g be W b (ix2 p j)
      = (∑ k : Fin 128, max (g (ix2 0 k) * (x (ix2 p k) - mu (ix2 0 k)) * Ideal.rsqrt (va (ix2 0 k) + Spec.cEps) + be (ix2 0 k)) 0
          * W (ix2 k j)) + b (ix2 0 j) := by
  unfold k1_pay7
  rw [addf_apply, row_bcast1, matmul_apply1]
  refine congrArg (· + b (ix2 0 j)) (Finset.sum_congr rfl fun k _ => ?_)
  rw [truncf_apply, truncf_apply, maximumf_apply, addf_apply, mulf_apply, mulf_apply, subf_apply, row_bcast1, row_bcast1,
    row_bcast1, broadcastTo_1b_ab_apply, rsqrt_apply1, addf_apply, shapeCast_self, shapeCast_self, broadcast_apply, broadcast_apply]
  show max _ (Ideal.ofBits .f32 0x00000000#32) * _ = _
  rw [Ideal.ofBits_zero_f32]
  rfl

-- The rows computed at point `t` are rows `5000 t`, …, `5000 t + 4999` of the layer's output.
theorem z1_apply1 (p : Fin 5000) (r : Fin 100000) (hr : r.val = 5000 * t.val + p.val) : z1 V c t (ix2 p j) = mZ1 V c r j := by
  unfold z1
  rw [pay7_apply1, in1_6_apply1]
  refine congrArg (· + mB1 V c j) (Finset.sum_congr rfl fun k _ => ?_)
  rw [in1_0_apply1 V c t p k r hr, in1_1_apply1, in1_2_apply1, in1_3_apply1, in1_4_apply1, in1_5_apply1]
  rfl

theorem pay1_apply1 (z : FVec Ideal S5000x128 .f32) (a : Vec Ideal S1x128 .f32) :
    k1_pay1 z a (ix2 0 j) = a (ix2 0 j) + ∑ p : Fin 5000, z (ix2 p j) := by
  unfold k1_pay1
  rw [shapeCast_self, addf_apply, shapeCast_a_1a_apply]
  exact congrArg _ (colReduce_apply _ _ _ _ _ j)

theorem pay2_apply1 (z : FVec Ideal S5000x128 .f32) (a : Vec Ideal S1x128 .f32) :
    k1_pay2 z a (ix2 0 j) = a (ix2 0 j) + ∑ p : Fin 5000, z (ix2 p j) * z (ix2 p j) := by
  unfold k1_pay2
  rw [shapeCast_self, addf_apply, shapeCast_a_1a_apply]
  exact congrArg _ (colReduce_apply _ _ _ _ _ j)

theorem pay5_apply1 : (k1_pay5 (F := Ideal)) (ix2 0 j) = 0 := by
  unfold k1_pay5
  rw [shapeCast_self]
  exact Ideal.ofBits_zero_f32

theorem pay6_apply1 : (k1_pay6 (F := Ideal)) (ix2 0 j) = 0 := by
  unfold k1_pay6
  rw [shapeCast_self]
  exact Ideal.ofBits_zero_f32

-- After the last point the two accumulators hold the column sums, and the column sums of squares, of the layer's output.
theorem colSum1 : (acc1 V c 19).1 (ix2 0 j) = Spec.colSum (mZ1 V c) j :=
  sum_of_run 5000 cfg1.N (by rw [show cfg1.N = 20 from N_1]) (fun r => mZ1 V c r j) (fun t h p => z1 V c ⟨t, h⟩ (ix2 p j))
    (fun t h p r hr => z1_apply1 V c ⟨t, h⟩ j p r hr) (fun n => (acc1 V c n).1 (ix2 0 j))
    (fun h => by show (acc1 V c 0).1 (ix2 0 j) = _; rw [acc1]; dsimp only; rw [pay1_apply1, pay5_apply1])
    (fun n h => by show (acc1 V c (n + 1)).1 (ix2 0 j) = _; rw [acc1, dif_pos h]; dsimp only; rw [pay1_apply1]) 19 N_1.symm

theorem colSumSq1 : (acc1 V c 19).2 (ix2 0 j) = Spec.colSum (fun r j => mZ1 V c r j * mZ1 V c r j) j :=
  sum_of_run 5000 cfg1.N (by rw [show cfg1.N = 20 from N_1]) (fun r => mZ1 V c r j * mZ1 V c r j) (fun t h p => z1 V c ⟨t, h⟩ (ix2 p j) * z1 V c ⟨t, h⟩ (ix2 p j))
    (fun t h p r hr => by rw [z1_apply1 V c ⟨t, h⟩ j p r hr]) (fun n => (acc1 V c n).2 (ix2 0 j))
    (fun h => by show (acc1 V c 0).2 (ix2 0 j) = _; rw [acc1]; dsimp only; rw [pay2_apply1, pay6_apply1])
    (fun n h => by show (acc1 V c (n + 1)).2 (ix2 0 j) = _; rw [acc1, dif_pos h]; dsimp only; rw [pay2_apply1]) 19 N_1.symm

theorem mean1_apply1 : mean1 V c (ix2 0 j) = Spec.mean (mZ1 V c) j :=
  congrArg (Ideal.div · Spec.cN) (colSum1 V c j)

theorem var1_apply1 : var1 V c (ix2 0 j) = Spec.varK (mZ1 V c) j := by
  show Ideal.div ((acc1 V c 19).2 (ix2 0 j)) Spec.cN - Ideal.div ((acc1 V c 19).1 (ix2 0 j)) Spec.cN * Ideal.div ((acc1 V c 19).1 (ix2 0 j)) Spec.cN = _
  rw [colSum1, colSumSq1]
  rfl

theorem flushed1_7_eq :
    (dat1 V c).flushed 7 t = ((cfg1.win 7).blk t).view.read (Elt Ideal) (fun i : S100000x128.Idx => mZ1 V c (i 0) (i 1)) := by
  show (cfg1.win 7).cut (grid1.coords t) ((dat1 V c).after 7 t) = _
  rw [after1_7]
  funext y
  obtain ⟨p, j, rfl⟩ : ∃ (p : Fin 5000) (j : Fin 128), y = ix2 p j := ⟨y 0, y 1, eq_ix2 (n0 := 5000) (n1 := 128) y⟩
  obtain ⟨-, -, -, -, -, -, -, -, -, -, -, -, -, -, e0, e1, -⟩ := idx_facts1 t
  show z1 V c t (ix2 p j) = mZ1 V c ((((cfg1.win 7).blk t).view.emb (ix2 p j)) 0) ((((cfg1.win 7).blk t).view.emb (ix2 p j)) 1)
  rw [show (((cfg1.win 7).blk t).view.emb (ix2 p j)) 1 = j from
    Fin.ext (by show win1_7.index t (1 : Fin 2) * 128 + 1 * j.val = j.val; omega)]
  exact z1_apply1 V c t j p _ (by show win1_7.index t (0 : Fin 2) * 5000 + 1 * p.val = _; omega)

-- Row `r` is in the block of point `r / 5000`.
theorem cover1_7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_7 t, ?_⟩
  show i ∈ ((View.whole main_v15_0).slice (win1_7.rect t)).set
  rw [View.set_slice_whole, Rect.mem_set_unit]
  obtain ⟨-, -, -, -, -, -, -, -, -, -, -, -, -, -, e0, e1, -⟩ := idx_facts1 t
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

theorem final1_z : ((dat1 V c).arrAt 7 cfg1.N : S100000x128.Idx → EReal) = fun i => mZ1 V c (i 0) (i 1) :=
  (dat1 V c).arrAt_eq_of_cover 7 (fun i : S100000x128.Idx => mZ1 V c (i 0) (i 1)) (fun t _ => flushed1_7_eq V c t) cover1_7

theorem flushed1_8_eq :
    (dat1 V c).flushed 8 t = ((cfg1.win 8).blk t).view.read (Elt Ideal) (fun i : S1x128.Idx => Spec.mean (mZ1 V c) (i 1)) := by
  show (cfg1.win 8).cut (grid1.coords t) ((dat1 V c).after 8 t) = _
  rw [after1_8]
  funext y
  obtain ⟨u, j, rfl⟩ : ∃ (u : Fin 1) (j : Fin 128), y = ix2 u j := ⟨y 0, y 1, eq_ix2 (n0 := 1) (n1 := 128) y⟩
  obtain rfl : u = 0 := Subsingleton.elim _ _
  obtain ⟨-, -, -, -, -, -, -, -, -, -, -, -, -, -, -, -, e0, e1, -⟩ := idx_facts1 t
  show _ = Spec.mean (mZ1 V c) ((((cfg1.win 8).blk t).view.emb (ix2 0 j)) 1)
  rw [show (((cfg1.win 8).blk t).view.emb (ix2 0 j)) 1 = j from
    Fin.ext (by show win1_8.index t (1 : Fin 2) * 128 + 1 * j.val = j.val; omega)]
  exact mean1_apply1 V c j

theorem cover1_8 (i : S1x128.Idx) : ∃ t : Fin cfg1.N, (cfg1.win 8).flush t = true ∧ i ∈ ((cfg1.win 8).blk t).view.set := by
  have hi0 : (i 0).val < 1 := (i 0).isLt
  have hi1 : (i 1).val < 128 := (i 1).isLt
  have hN : cfg1.N = 20 := N_1
  obtain ⟨t, ht⟩ : ∃ t : Fin cfg1.N, t.val = 19 := ⟨⟨19, by rw [hN]; omega⟩, rfl⟩
  refine ⟨t, (flush1_8 t).mpr (by omega), ?_⟩
  show i ∈ ((View.whole main_v15_1).slice (win1_8.rect t)).set
  rw [View.set_slice_whole, Rect.mem_set_unit]
  obtain ⟨-, -, -, -, -, -, -, -, -, -, -, -, -, -, -, -, e0, e1, -⟩ := idx_facts1 t
  intro a
  match a with
  | ⟨0, _⟩ => show win1_8.index t (0 : Fin 2) * 1 ≤ (i 0).val ∧ (i 0).val < win1_8.index t (0 : Fin 2) * 1 + 1; omega
  | ⟨1, _⟩ => show win1_8.index t (1 : Fin 2) * 128 ≤ (i 1).val ∧ (i 1).val < win1_8.index t (1 : Fin 2) * 128 + 128; omega

theorem flushed1_9_eq :
    (dat1 V c).flushed 9 t = ((cfg1.win 9).blk t).view.read (Elt Ideal) (fun i : S1x128.Idx => Spec.varK (mZ1 V c) (i 1)) := by
  show (cfg1.win 9).cut (grid1.coords t) ((dat1 V c).after 9 t) = _
  rw [after1_9]
  funext y
  obtain ⟨u, j, rfl⟩ : ∃ (u : Fin 1) (j : Fin 128), y = ix2 u j := ⟨y 0, y 1, eq_ix2 (n0 := 1) (n1 := 128) y⟩
  obtain rfl : u = 0 := Subsingleton.elim _ _
  obtain ⟨-, -, -, -, -, -, -, -, -, -, -, -, -, -, -, -, -, -, e0, e1⟩ := idx_facts1 t
  show _ = Spec.varK (mZ1 V c) ((((cfg1.win 9).blk t).view.emb (ix2 0 j)) 1)
  rw [show (((cfg1.win 9).blk t).view.emb (ix2 0 j)) 1 = j from
    Fin.ext (by show win1_9.index t (1 : Fin 2) * 128 + 1 * j.val = j.val; omega)]
  exact var1_apply1 V c j

theorem cover1_9 (i : S1x128.Idx) : ∃ t : Fin cfg1.N, (cfg1.win 9).flush t = true ∧ i ∈ ((cfg1.win 9).blk t).view.set := by
  have hi0 : (i 0).val < 1 := (i 0).isLt
  have hi1 : (i 1).val < 128 := (i 1).isLt
  have hN : cfg1.N = 20 := N_1
  obtain ⟨t, ht⟩ : ∃ t : Fin cfg1.N, t.val = 19 := ⟨⟨19, by rw [hN]; omega⟩, rfl⟩
  refine ⟨t, (flush1_9 t).mpr (by omega), ?_⟩
  show i ∈ ((View.whole main_v15_2).slice (win1_9.rect t)).set
  rw [View.set_slice_whole, Rect.mem_set_unit]
  obtain ⟨-, -, -, -, -, -, -, -, -, -, -, -, -, -, -, -, -, -, e0, e1⟩ := idx_facts1 t
  intro a
  match a with
  | ⟨0, _⟩ => show win1_9.index t (0 : Fin 2) * 1 ≤ (i 0).val ∧ (i 0).val < win1_9.index t (0 : Fin 2) * 1 + 1; omega
  | ⟨1, _⟩ => show win1_9.index t (1 : Fin 2) * 128 ≤ (i 1).val ∧ (i 1).val < win1_9.index t (1 : Fin 2) * 128 + 128; omega

theorem final1_mean : ((dat1 V c).arrAt 8 cfg1.N : S1x128.Idx → EReal) = fun i => Spec.mean (mZ1 V c) (i 1) :=
  (dat1 V c).arrAt_eq_of_cover 8 (fun i : S1x128.Idx => Spec.mean (mZ1 V c) (i 1)) (fun t _ => flushed1_8_eq V c t) cover1_8

theorem final1_var : ((dat1 V c).arrAt 9 cfg1.N : S1x128.Idx → EReal) = fun i => Spec.varK (mZ1 V c) (i 1) :=
  (dat1 V c).arrAt_eq_of_cover 9 (fun i : S1x128.Idx => Spec.varK (mZ1 V c) (i 1)) (fun t _ => flushed1_9_eq V c t) cover1_9

end Cert.KernelIdeal.Hand

end
-- ==== Proof.KI.Val2.lean ====
import proofs.«108410_j49581102465153_1_alg».proof.Proof.KI.D2
import proofs.«108410_j49581102465153_1_alg».proof.Proof.Spec
import proofs.«108410_j49581102465153_1_alg».proof.Proof.LibKeepdims
import proofs.«108410_j49581102465153_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.Keepdims
open Cert.KernelIdeal Cert.KernelIdeal.Gen
open scoped BigOperators

variable (V : (c : Dev nD) → (b : Ref sig .tc) → Buf (Elt Ideal) ((c : Thread nD τ).loc b))

abbrev mZin2 (c : Dev nD) : Spec.Mat 100000 128 := Spec.mat (V c main_v15_0 : S100000x128.Idx → EReal)
abbrev mMu2 (c : Dev nD) : Spec.Row 128 := Spec.row (V c main_v15_1 : S1x128.Idx → EReal)
abbrev mVa2 (c : Dev nD) : Spec.Row 128 := Spec.row (V c main_v15_2 : S1x128.Idx → EReal)
abbrev mG2 (c : Dev nD) : Spec.Row 128 := Spec.row (V c main_v16 : S1x128.Idx → EReal)
abbrev mBe2 (c : Dev nD) : Spec.Row 128 := Spec.row (V c main_v17 : S1x128.Idx → EReal)
abbrev mH2 (c : Dev nD) : Spec.Mat 100000 128 := Spec.bnrelu (mZin2 V c) (mMu2 V c) (mVa2 V c) (mG2 V c) (mBe2 V c)

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

variable (c : Dev nD) (t : Fin cfg2.N) (j : Fin 128)

theorem in2_0_apply2 (p : Fin 5000) (q : Fin 128) (r : Fin 100000) (hr : r.val = 5000 * t.val + p.val) :
    in2_0 V c t (ix2 p q) = mZin2 V c r q := by
  obtain ⟨e0, e1, -⟩ := idx_facts2 t
  exact congrArg (V c main_v15_0) (Shape.idx_ext₂ (by show win2_0.index t (0 : Fin 2) * 5000 + 1 * p.val = r.val; omega)
    (by show win2_0.index t (1 : Fin 2) * 128 + 1 * q.val = q.val; omega))

theorem in2_1_apply2 (q : Fin 128) : in2_1 V c t (ix2 0 q) = mMu2 V c q := by
  obtain ⟨-, -, e0, e1, -⟩ := idx_facts2 t
  exact congrArg (V c main_v15_1) (Shape.idx_ext₂ (by show win2_1.index t (0 : Fin 2) * 1 + 1 * 0 = 0; omega)
    (by show win2_1.index t (1 : Fin 2) * 128 + 1 * q.val = q.val; omega))

theorem in2_2_apply2 (q : Fin 128) : in2_2 V c t (ix2 0 q) = mVa2 V c q := by
  obtain ⟨-, -, -, -, e0, e1, -⟩ := idx_facts2 t
  exact congrArg (V c main_v15_2) (Shape.idx_ext₂ (by show win2_2.index t (0 : Fin 2) * 1 + 1 * 0 = 0; omega)
    (by show win2_2.index t (1 : Fin 2) * 128 + 1 * q.val = q.val; omega))

theorem in2_3_apply2 (q : Fin 128) : in2_3 V c t (ix2 0 q) = mG2 V c q := by
  obtain ⟨-, -, -, -, -, -, e0, e1, -⟩ := idx_facts2 t
  exact congrArg (V c main_v16) (Shape.idx_ext₂ (by show win2_3.index t (0 : Fin 2) * 1 + 1 * 0 = 0; omega)
    (by show win2_3.index t (1 : Fin 2) * 128 + 1 * q.val = q.val; omega))

theorem in2_4_apply2 (q : Fin 128) : in2_4 V c t (ix2 0 q) = mBe2 V c q := by
  obtain ⟨-, -, -, -, -, -, -, -, e0, e1, -⟩ := idx_facts2 t
  exact congrArg (V c main_v17) (Shape.idx_ext₂ (by show win2_4.index t (0 : Fin 2) * 1 + 1 * 0 = 0; omega)
    (by show win2_4.index t (1 : Fin 2) * 128 + 1 * q.val = q.val; omega))

theorem pay6_apply2 (v3 : Vec Ideal S5000x128 .f32) (v5 v7 v9 v11 : Vec Ideal S1x128 .f32) (p : Fin 5000) :
    k2_pay6 v3 v5 v7 v9 v11 (ix2 p j)
      = max (v9 (ix2 0 j) * (v3 (ix2 p j) - v5 (ix2 0 j)) * Ideal.rsqrt (v7 (ix2 0 j) + Spec.cEps) + v11 (ix2 0 j)) 0 := by
  unfold k2_pay6
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  show max (_ * _ * Ideal.rsqrt (v7 (ix2 0 j) + Spec.cEps) + _) (Ideal.ofBits .f32 0x00000000#32) = _
  rw [Ideal.ofBits_zero_f32]

theorem pay7_apply2 (v3 : Vec Ideal S5000x128 .f32) (v5 v7 v9 v11 v27 : Vec Ideal S1x128 .f32) :
    k2_pay7 v3 v5 v7 v9 v11 v27 (ix2 0 j) = v27 (ix2 0 j) + ∑ p : Fin 5000, k2_pay6 v3 v5 v7 v9 v11 (ix2 p j) := by
  unfold k2_pay7
  simp only [shapeCast_self]
  rw [addf_apply, shapeCast_a_1a_apply]
  exact congrArg _ (colReduce_apply _ _ _ _ _ j)

theorem pay1_apply2 (v25 : FVec Ideal S5000x128 .f32) (v34 : Vec Ideal S1x128 .f32) :
    k2_pay1 v25 v34 (ix2 0 j) = v34 (ix2 0 j) + ∑ p : Fin 5000, v25 (ix2 p j) * v25 (ix2 p j) := by
  unfold k2_pay1
  simp only [shapeCast_self]
  rw [addf_apply, shapeCast_a_1a_apply]
  exact congrArg _ (colReduce_apply _ _ _ _ _ j)

theorem pay4_apply2 (i : S1x128.Idx) : (k2_pay4 : FVec Ideal S1x128 .f32) i = 0 := by
  unfold k2_pay4
  simp only [shapeCast_self]
  exact Ideal.ofBits_zero_f32

theorem pay5_apply2 (i : S1x128.Idx) : (k2_pay5 : FVec Ideal S1x128 .f32) i = 0 := by
  unfold k2_pay5
  simp only [shapeCast_self]
  exact Ideal.ofBits_zero_f32

-- The rows computed at point `t` are rows `5000 t`, …, `5000 t + 4999` of the normalised, rectified matrix.
theorem z2_apply2 (p : Fin 5000) (r : Fin 100000) (hr : r.val = 5000 * t.val + p.val) : z2 V c t (ix2 p j) = mH2 V c r j := by
  unfold z2
  rw [pay6_apply2, in2_0_apply2 V c t p j r hr, in2_1_apply2, in2_2_apply2, in2_3_apply2, in2_4_apply2]
  rfl

theorem flushed2_5_eq :
    (dat2 V c).flushed 5 t = ((cfg2.win 5).blk t).view.read (Elt Ideal) (fun i : S100000x128.Idx => mH2 V c (i 0) (i 1)) := by
  show (cfg2.win 5).cut (grid2.coords t) ((dat2 V c).after 5 t) = _
  rw [after2_5]
  funext y
  obtain ⟨p, j, rfl⟩ : ∃ (p : Fin 5000) (j : Fin 128), y = ix2 p j := ⟨y 0, y 1, eq_ix2 (n0 := 5000) (n1 := 128) y⟩
  obtain ⟨-, -, -, -, -, -, -, -, -, -, e0, e1, -⟩ := idx_facts2 t
  show z2 V c t (ix2 p j) = mH2 V c ((((cfg2.win 5).blk t).view.emb (ix2 p j)) 0) ((((cfg2.win 5).blk t).view.emb (ix2 p j)) 1)
  rw [show (((cfg2.win 5).blk t).view.emb (ix2 p j)) 1 = j from
    Fin.ext (by show win2_5.index t (1 : Fin 2) * 128 + 1 * j.val = j.val; omega)]
  exact z2_apply2 V c t j p _ (by show win2_5.index t (0 : Fin 2) * 5000 + 1 * p.val = _; omega)

-- Row `r` is in the block of point `r / 5000`.
theorem cover2_5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_5 t, ?_⟩
  show i ∈ ((View.whole main_v18_0).slice (win2_5.rect t)).set
  rw [View.set_slice_whole, Rect.mem_set_unit]
  obtain ⟨-, -, -, -, -, -, -, -, -, -, e0, e1, -⟩ := idx_facts2 t
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

theorem final2_h : ((dat2 V c).arrAt 5 cfg2.N : S100000x128.Idx → EReal) = fun i => mH2 V c (i 0) (i 1) :=
  (dat2 V c).arrAt_eq_of_cover 5 (fun i : S100000x128.Idx => mH2 V c (i 0) (i 1)) (fun t _ => flushed2_5_eq V c t) cover2_5

-- After the last point the two accumulators hold the column sums, and the column sums of squares, of the matrix.
theorem colSum2 : (acc2 V c 19).1 (ix2 0 j) = Spec.colSum (mH2 V c) j :=
  sum_of_run 5000 cfg2.N (by rw [show cfg2.N = 20 from N_2]) (fun r => mH2 V c r j) (fun t h p => z2 V c ⟨t, h⟩ (ix2 p j))
    (fun t h p r hr => z2_apply2 V c ⟨t, h⟩ j p r hr) (fun n => (acc2 V c n).1 (ix2 0 j))
    (fun h => by show (acc2 V c 0).1 (ix2 0 j) = _; rw [acc2]; dsimp only; rw [pay7_apply2, pay4_apply2]; rfl)
    (fun n h => by show (acc2 V c (n + 1)).1 (ix2 0 j) = _; rw [acc2, dif_pos h]; dsimp only; rw [pay7_apply2]; rfl) 19 N_2.symm

theorem colSumSq2 : (acc2 V c 19).2 (ix2 0 j) = Spec.colSum (fun r j => mH2 V c r j * mH2 V c r j) j :=
  sum_of_run 5000 cfg2.N (by rw [show cfg2.N = 20 from N_2]) (fun r => mH2 V c r j * mH2 V c r j) (fun t h p => z2 V c ⟨t, h⟩ (ix2 p j) * z2 V c ⟨t, h⟩ (ix2 p j))
    (fun t h p r hr => by rw [z2_apply2 V c ⟨t, h⟩ j p r hr]) (fun n => (acc2 V c n).2 (ix2 0 j))
    (fun h => by show (acc2 V c 0).2 (ix2 0 j) = _; rw [acc2]; dsimp only; rw [pay1_apply2, pay5_apply2])
    (fun n h => by show (acc2 V c (n + 1)).2 (ix2 0 j) = _; rw [acc2, dif_pos h]; dsimp only; rw [pay1_apply2]) 19 N_2.symm

theorem mean2_apply2 : mean2 V c (ix2 0 j) = Spec.mean (mH2 V c) j :=
  congrArg (Ideal.div · Spec.cN) (colSum2 V c j)

theorem var2_apply2 : var2 V c (ix2 0 j) = Spec.varK (mH2 V c) j := by
  show Ideal.div ((acc2 V c 19).2 (ix2 0 j)) Spec.cN - Ideal.div ((acc2 V c 19).1 (ix2 0 j)) Spec.cN * Ideal.div ((acc2 V c 19).1 (ix2 0 j)) Spec.cN = _
  rw [colSum2, colSumSq2]
  rfl

theorem flushed2_6_eq :
    (dat2 V c).flushed 6 t = ((cfg2.win 6).blk t).view.read (Elt Ideal) (fun i : S1x128.Idx => Spec.mean (mH2 V c) (i 1)) := by
  show (cfg2.win 6).cut (grid2.coords t) ((dat2 V c).after 6 t) = _
  rw [after2_6]
  funext y
  obtain ⟨u, j, rfl⟩ : ∃ (u : Fin 1) (j : Fin 128), y = ix2 u j := ⟨y 0, y 1, eq_ix2 (n0 := 1) (n1 := 128) y⟩
  obtain rfl : u = 0 := Subsingleton.elim _ _
  obtain ⟨-, -, -, -, -, -, -, -, -, -, -, -, e0, e1, -⟩ := idx_facts2 t
  show _ = Spec.mean (mH2 V c) ((((cfg2.win 6).blk t).view.emb (ix2 0 j)) 1)
  rw [show (((cfg2.win 6).blk t).view.emb (ix2 0 j)) 1 = j from
    Fin.ext (by show win2_6.index t (1 : Fin 2) * 128 + 1 * j.val = j.val; omega)]
  exact mean2_apply2 V c j

theorem cover2_6 (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  have hN : cfg2.N = 20 := N_2
  obtain ⟨t, ht⟩ : ∃ t : Fin cfg2.N, t.val = 19 := ⟨⟨19, by rw [hN]; omega⟩, rfl⟩
  refine ⟨t, (flush2_6 t).mpr (by omega), ?_⟩
  show i ∈ ((View.whole main_v18_1).slice (win2_6.rect t)).set
  rw [View.set_slice_whole, Rect.mem_set_unit]
  obtain ⟨-, -, -, -, -, -, -, -, -, -, -, -, e0, e1, -⟩ := idx_facts2 t
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 128 ≤ (i 1).val ∧ (i 1).val < win2_6.index t (1 : Fin 2) * 128 + 128; omega

theorem flushed2_7_eq :
    (dat2 V c).flushed 7 t = ((cfg2.win 7).blk t).view.read (Elt Ideal) (fun i : S1x128.Idx => Spec.varK (mH2 V c) (i 1)) := by
  show (cfg2.win 7).cut (grid2.coords t) ((dat2 V c).after 7 t) = _
  rw [after2_7]
  funext y
  obtain ⟨u, j, rfl⟩ : ∃ (u : Fin 1) (j : Fin 128), y = ix2 u j := ⟨y 0, y 1, eq_ix2 (n0 := 1) (n1 := 128) y⟩
  obtain rfl : u = 0 := Subsingleton.elim _ _
  obtain ⟨-, -, -, -, -, -, -, -, -, -, -, -, -, -, e0, e1⟩ := idx_facts2 t
  show _ = Spec.varK (mH2 V c) ((((cfg2.win 7).blk t).view.emb (ix2 0 j)) 1)
  rw [show (((cfg2.win 7).blk t).view.emb (ix2 0 j)) 1 = j from
    Fin.ext (by show win2_7.index t (1 : Fin 2) * 128 + 1 * j.val = j.val; omega)]
  exact var2_apply2 V c j

theorem cover2_7 (i : S1x128.Idx) : ∃ t : Fin cfg2.N, (cfg2.win 7).flush t = true ∧ i ∈ ((cfg2.win 7).blk t).view.set := by
  have hi0 : (i 0).val < 1 := (i 0).isLt
  have hi1 : (i 1).val < 128 := (i 1).isLt
  have hN : cfg2.N = 20 := N_2
  obtain ⟨t, ht⟩ : ∃ t : Fin cfg2.N, t.val = 19 := ⟨⟨19, by rw [hN]; omega⟩, rfl⟩
  refine ⟨t, (flush2_7 t).mpr (by omega), ?_⟩
  show i ∈ ((View.whole main_v18_2).slice (win2_7.rect t)).set
  rw [View.set_slice_whole, Rect.mem_set_unit]
  obtain ⟨-, -, -, -, -, -, -, -, -, -, -, -, -, -, e0, e1⟩ := idx_facts2 t
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega

theorem final2_mean : ((dat2 V c).arrAt 6 cfg2.N : S1x128.Idx → EReal) = fun i => Spec.mean (mH2 V c) (i 1) :=
  (dat2 V c).arrAt_eq_of_cover 6 (fun i : S1x128.Idx => Spec.mean (mH2 V c) (i 1)) (fun t _ => flushed2_6_eq V c t) cover2_6

theorem final2_var : ((dat2 V c).arrAt 7 cfg2.N : S1x128.Idx → EReal) = fun i => Spec.varK (mH2 V c) (i 1) :=
  (dat2 V c).arrAt_eq_of_cover 7 (fun i : S1x128.Idx => Spec.varK (mH2 V c) (i 1)) (fun t _ => flushed2_7_eq V c t) cover2_7

end Cert.KernelIdeal.Hand

end
-- ==== Proof.KI.Val3.lean ====
import proofs.«108410_j49581102465153_1_alg».proof.Proof.KI.D3
import proofs.«108410_j49581102465153_1_alg».proof.Proof.Spec
import proofs.«108410_j49581102465153_1_alg».proof.Proof.LibKeepdims
import proofs.«108410_j49581102465153_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.Keepdims
open Cert.KernelIdeal Cert.KernelIdeal.Gen
open scoped BigOperators

variable (V : (c : Dev nD) → (b : Ref sig .tc) → Buf (Elt Ideal) ((c : Thread nD τ).loc b))

abbrev mZin3 (c : Dev nD) : Spec.Mat 100000 128 := Spec.mat (V c main_v18_0 : S100000x128.Idx → EReal)
abbrev mMu3 (c : Dev nD) : Spec.Row 128 := Spec.row (V c main_v18_1 : S1x128.Idx → EReal)
abbrev mVa3 (c : Dev nD) : Spec.Row 128 := Spec.row (V c main_v18_2 : S1x128.Idx → EReal)
abbrev mG3 (c : Dev nD) : Spec.Row 128 := Spec.row (V c main_v19 : S1x128.Idx → EReal)
abbrev mBe3 (c : Dev nD) : Spec.Row 128 := Spec.row (V c main_v20 : S1x128.Idx → EReal)
abbrev mO3 (c : Dev nD) : Spec.Mat 100000 128 := Spec.bnrelu (mZin3 V c) (mMu3 V c) (mVa3 V c) (mG3 V c) (mBe3 V c)
abbrev mH3 (c : Dev nD) : S100000x128.Idx → EReal := fun i => mO3 V c (i 0) (i 1)

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (c : Dev nD) (t : Fin cfg3.N) (j : Fin 128)

theorem in3_0_apply3 (p : Fin 5000) (q : Fin 128) (r : Fin 100000) (hr : r.val = 5000 * t.val + p.val) :
    in3_0 V c t (ix2 p q) = mZin3 V c r q := by
  obtain ⟨e0, e1, -⟩ := idx_facts3 t
  exact congrArg (V c main_v18_0) (Shape.idx_ext₂ (by show win3_0.index t (0 : Fin 2) * 5000 + 1 * p.val = r.val; omega)
    (by show win3_0.index t (1 : Fin 2) * 128 + 1 * q.val = q.val; omega))

theorem in3_1_apply3 (q : Fin 128) : in3_1 V c t (ix2 0 q) = mMu3 V c q := by
  obtain ⟨-, -, e0, e1, -⟩ := idx_facts3 t
  exact congrArg (V c main_v18_1) (Shape.idx_ext₂ (by show win3_1.index t (0 : Fin 2) * 1 + 1 * 0 = 0; omega)
    (by show win3_1.index t (1 : Fin 2) * 128 + 1 * q.val = q.val; omega))

theorem in3_2_apply3 (q : Fin 128) : in3_2 V c t (ix2 0 q) = mVa3 V c q := by
  obtain ⟨-, -, -, -, e0, e1, -⟩ := idx_facts3 t
  exact congrArg (V c main_v18_2) (Shape.idx_ext₂ (by show win3_2.index t (0 : Fin 2) * 1 + 1 * 0 = 0; omega)
    (by show win3_2.index t (1 : Fin 2) * 128 + 1 * q.val = q.val; omega))

theorem in3_3_apply3 (q : Fin 128) : in3_3 V c t (ix2 0 q) = mG3 V c q := by
  obtain ⟨-, -, -, -, -, -, e0, e1, -⟩ := idx_facts3 t
  exact congrArg (V c main_v19) (Shape.idx_ext₂ (by show win3_3.index t (0 : Fin 2) * 1 + 1 * 0 = 0; omega)
    (by show win3_3.index t (1 : Fin 2) * 128 + 1 * q.val = q.val; omega))

theorem in3_4_apply3 (q : Fin 128) : in3_4 V c t (ix2 0 q) = mBe3 V c q := by
  obtain ⟨-, -, -, -, -, -, -, -, e0, e1, -⟩ := idx_facts3 t
  exact congrArg (V c main_v20) (Shape.idx_ext₂ (by show win3_4.index t (0 : Fin 2) * 1 + 1 * 0 = 0; omega)
    (by show win3_4.index t (1 : Fin 2) * 128 + 1 * q.val = q.val; omega))

theorem pay1_apply3 (x0 : Vec Ideal S5000x128 .f32) (x1 x2 x3 x4 : Vec Ideal S1x128 .f32) (p : Fin 5000) :
    k3_pay1 x0 x1 x2 x3 x4 (ix2 p j)
      = max (x3 (ix2 0 j) * (x0 (ix2 p j) - x1 (ix2 0 j)) * Ideal.rsqrt (x2 (ix2 0 j) + Spec.cEps) + x4 (ix2 0 j)) 0 := by
  unfold k3_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (_ * _ * Ideal.rsqrt (x2 (ix2 0 j) + Spec.cEps) + _) (Ideal.ofBits .f32 0x00000000#32) = _
  rw [Ideal.ofBits_zero_f32]

-- The rows computed at point `t` are rows `5000 t`, …, `5000 t + 4999` of the normalised, rectified matrix.
theorem z3_apply3 (p : Fin 5000) (r : Fin 100000) (hr : r.val = 5000 * t.val + p.val) : z3 V c t (ix2 p j) = mO3 V c r j := by
  unfold z3
  rw [pay1_apply3, in3_0_apply3 V c t p j r hr, in3_1_apply3, in3_2_apply3, in3_3_apply3, in3_4_apply3]
  rfl

theorem flushed3_5_eq :
    (dat3 V c).flushed 5 t = ((cfg3.win 5).blk t).view.read (Elt Ideal) (fun i : S100000x128.Idx => mO3 V c (i 0) (i 1)) := by
  show (cfg3.win 5).cut (grid3.coords t) ((dat3 V c).after 5 t) = _
  rw [after3_5]
  funext y
  obtain ⟨p, j, rfl⟩ : ∃ (p : Fin 5000) (j : Fin 128), y = ix2 p j := ⟨y 0, y 1, eq_ix2 (n0 := 5000) (n1 := 128) y⟩
  obtain ⟨-, -, -, -, -, -, -, -, -, -, e0, e1⟩ := idx_facts3 t
  show z3 V c t (ix2 p j) = mO3 V c ((((cfg3.win 5).blk t).view.emb (ix2 p j)) 0) ((((cfg3.win 5).blk t).view.emb (ix2 p j)) 1)
  rw [show (((cfg3.win 5).blk t).view.emb (ix2 p j)) 1 = j from
    Fin.ext (by show win3_5.index t (1 : Fin 2) * 128 + 1 * j.val = j.val; omega)]
  exact z3_apply3 V c t j p _ (by show win3_5.index t (0 : Fin 2) * 5000 + 1 * p.val = _; omega)

-- Row `r` is in the block of point `r / 5000`.
theorem cover3_5 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  refine ⟨t, flush3_5 t, ?_⟩
  show i ∈ ((View.whole main_v21).slice (win3_5.rect t)).set
  rw [View.set_slice_whole, Rect.mem_set_unit]
  obtain ⟨-, -, -, -, -, -, -, -, -, -, e0, e1⟩ := idx_facts3 t
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

theorem final3 : ((dat3 V c).arrAt 5 cfg3.N : S100000x128.Idx → EReal) = mH3 V c :=
  (dat3 V c).arrAt_eq_of_cover 5 (mH3 V c) (fun t _ => flushed3_5_eq V c t) cover3_5

end Cert.KernelIdeal.Hand

end
-- ==== Proof.Agg.lean ====
import proofs.«108410_j49581102465153_1_alg».proof.Proof.Gen.KernelIdeal
import proofs.«108410_j49581102465153_1_alg».proof.Proof.Gen.ReferenceIdeal

noncomputable section

namespace Cert.KernelIdeal.Hand

open Idealize.ShloMosaic Cert.KernelIdeal Cert.KernelIdeal.Facts₀ Cert.KernelIdeal.Facts

variable {F : FTy → Type} [FloatOps F]

def aggK (x : (⟨S100000x32, .f32⟩ : BufTy).Contents (Elt F)) (src dst : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32 : (⟨S_, .f32⟩ : BufTy).Contents (Elt F)))
    (broadcastInDim S1600000x1 ![0] bcast_S1600000_S1600000x1_0 dst)
    (Host.gather gather_S100000x32_S1600000x1_S1600000x32_1_0_n_n_0_1_132 x
      (broadcastInDim S1600000x1 ![0] bcast_S1600000_S1600000x1_0
        (select (cmpi .slt src (broadcastInDim S1600000 ![] bcast_S_S1600000 (constantI S_ 32 0#32 : (⟨S_, .i32⟩ : BufTy).Contents (Elt F))))
          (addi src (broadcastInDim S1600000 ![] bcast_S_S1600000 (constantI S_ 32 100000#32 : (⟨S_, .i32⟩ : BufTy).Contents (Elt F)))) src)))

end Cert.KernelIdeal.Hand

namespace Cert.ReferenceIdeal.RefValue

open Idealize.ShloMosaic Cert.ReferenceIdeal Cert.ReferenceIdeal.Facts₀ Cert.ReferenceIdeal.Facts

variable {F : FTy → Type} [FloatOps F]

def aggR (x : (⟨S100000x32, .f32⟩ : BufTy).Contents (Elt F)) (src dst : (⟨S1600000, .i32⟩ : BufTy).Contents (Elt F)) :
    (⟨S100000x32, .f32⟩ : BufTy).Contents (Elt F) :=
  Cert.KernelIdeal.Hand.aggK x src dst

theorem aggR_eq_aggK : (aggR (F := F)) = Cert.KernelIdeal.Hand.aggK (F := F) := rfl

end Cert.ReferenceIdeal.RefValue

end
-- ==== Proof.KI.Chain.lean ====
import proofs.«108410_j49581102465153_1_alg».proof.Proof.Gen.KernelIdeal.Launch
import proofs.«108410_j49581102465153_1_alg».proof.Proof.Gen.KernelIdeal.Skeleton
import proofs.«108410_j49581102465153_1_alg».proof.Proof.Gen.KernelIdeal.Points
import proofs.«108410_j49581102465153_1_alg».proof.Proof.Gen.KernelIdeal.Regions
import proofs.«108410_j49581102465153_1_alg».proof.Proof.KI.Fold
import proofs.«108410_j49581102465153_1_alg».proof.Proof.KI.Val0
import proofs.«108410_j49581102465153_1_alg».proof.Proof.KI.Val1
import proofs.«108410_j49581102465153_1_alg».proof.Proof.KI.Val2
import proofs.«108410_j49581102465153_1_alg».proof.Proof.KI.Val3
import proofs.«108410_j49581102465153_1_alg».proof.Proof.Spec
import proofs.«108410_j49581102465153_1_alg».proof.Proof.Agg
import proofs.«108410_j49581102465153_1_alg».proof.Proof.LibKeepdims
import Idealize.ShloMosaic.Lib.StableHlo.Run
import Idealize.ShloMosaic.Lib.Pipeline.Value
import Idealize.ShloMosaic.Lib.ValueLayout
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (m : (ℓ : Loc nD τ sig) → Buf (Elt Ideal) ℓ)

abbrev arg (c : Dev nD) (r : Ref sig .tc) : Buf (Elt Ideal) ((c : Thread nD τ).loc r) := m ((c : Thread nD τ).loc r)

theorem row_shapeCast {d : ℕ} (x : (⟨1, ![d]⟩ : Shape).Idx → EReal) (h : (⟨1, ![d]⟩ : Shape).ShapeCasts ⟨2, ![1, d]⟩) :
    Spec.row (shapeCast ⟨2, ![1, d]⟩ x h) = Spec.vec x := by
  funext j
  show shapeCast ⟨2, ![1, d]⟩ x h (ix2 (0 : Fin 1) j) = x (ix1 j)
  refine shapeCast_apply x h _ _ ?_
  rw [Shape.rowMajor_val_two, Shape.rowMajor_val_one]
  show j.val = 0 * d + j.val
  omega

-- An array equal to a matrix or a row written out by coordinates, or to a vector viewed as one row, reads back as that matrix, row or vector.
theorem mat_of_eq {n d : ℕ} {v : (⟨2, ![n, d]⟩ : Shape).Idx → EReal} {M N : Spec.Mat n d} (h : v = fun i => M (i 0) (i 1))
    (hM : M = N) : Spec.mat v = N := by subst h hM; rfl

theorem row_of_eq {d : ℕ} {v : (⟨2, ![1, d]⟩ : Shape).Idx → EReal} {R S : Spec.Row d} (h : v = fun i => R (i 1)) (hR : R = S) :
    Spec.row v = S := by subst h hR; rfl

theorem row_of_cast {d : ℕ} {v : (⟨2, ![1, d]⟩ : Shape).Idx → EReal} {x : (⟨1, ![d]⟩ : Shape).Idx → EReal}
    {h' : (⟨1, ![d]⟩ : Shape).ShapeCasts ⟨2, ![1, d]⟩} (h : v = shapeCast ⟨2, ![1, d]⟩ x h') : Spec.row v = Spec.vec x := by
  subst h; exact row_shapeCast x h'

theorem V1_arg (c : Dev nD) (r : Ref sig .tc) (h : r ∉ hostOps0_W) : V1 m c r = arg m c r :=
  (StableHlo.after_of_writes_sub hostOps0 _ hostOps0_writes h).trans rfl

theorem V1_v9 (c : Dev nD) :
    (V1 m c main_v9 : S100000x32.Idx → EReal) = aggK (F := Ideal) (arg m c main_arg0) (arg m c main_arg1) (arg m c main_arg2) := by
  show StableHlo.after hostOps0 (fun b => m (c, b)) (Proc.devRef .tc main_v9) = _
  after_results
  rfl

theorem V1_v10 (c : Dev nD) :
    (V1 m c main_v10 : S1x128.Idx → EReal) = shapeCast S1x128 (arg m c main_arg4 : S128.Idx → EReal) shapeCasts_S128_S1x128 := by
  show StableHlo.after hostOps0 (fun b => m (c, b)) (Proc.devRef .tc main_v10) = _
  after_results
  rfl

theorem W2_arg (c : Dev nD) (r : Ref sig .tc) (h0 : ∀ w, Pipeline.arrRef spec0 w ≠ r) (h : r ∉ hostOps0_W) : W2 m c r = arg m c r :=
  (W2_of_ne m c r h0).trans (V1_arg m c r h)

theorem V3_arg (c : Dev nD) (r : Ref sig .tc) (h1 : r ∉ hostOps1_W) (h0 : ∀ w, Pipeline.arrRef spec0 w ≠ r) (h : r ∉ hostOps0_W) :
    V3 m c r = arg m c r :=
  (StableHlo.after_of_writes_sub hostOps1 _ hostOps1_writes h1).trans (W2_arg m c r h0 h)

theorem V3_out (c : Dev nD) (w : Fin cfg0.W) (h1 : Pipeline.arrRef spec0 w ∉ hostOps1_W) :
    V3 m c (Pipeline.arrRef spec0 w) = (dat0 (V1 m) c).arrAt w cfg0.N :=
  (StableHlo.after_of_writes_sub hostOps1 _ hostOps1_writes h1).trans (W2_arr m c w)

theorem V3_v11_0 (c : Dev nD) : (V3 m c main_v11_0 : S100000x128.Idx → EReal) = fun i => mZ0 (V1 m) c (i 0) (i 1) :=
  (V3_out m c 4 (by decide)).trans (final0_z (V1 m) c)
theorem V3_v11_1 (c : Dev nD) : (V3 m c main_v11_1 : S1x128.Idx → EReal) = fun i => Spec.mean (mZ0 (V1 m) c) (i 1) :=
  (V3_out m c 5 (by decide)).trans (final0_mean (V1 m) c)
theorem V3_v11_2 (c : Dev nD) : (V3 m c main_v11_2 : S1x128.Idx → EReal) = fun i => Spec.varK (mZ0 (V1 m) c) (i 1) :=
  (V3_out m c 6 (by decide)).trans (final0_var (V1 m) c)

theorem V3_v12 (c : Dev nD) :
    (V3 m c main_v12 : S1x128.Idx → EReal) = shapeCast S1x128 (arg m c main_arg5 : S128.Idx → EReal) shapeCasts_S128_S1x128 := by
  have e : W2 m c (Proc.devRef .tc main_arg5) = arg m c main_arg5 := W2_arg m c main_arg5 (by decide) (by decide)
  show StableHlo.after hostOps1 (W2 m c) (Proc.devRef .tc main_v12) = _
  after_results
  rw [e]
  rfl
theorem V3_v13 (c : Dev nD) :
    (V3 m c main_v13 : S1x128.Idx → EReal) = shapeCast S1x128 (arg m c main_arg6 : S128.Idx → EReal) shapeCasts_S128_S1x128 := by
  have e : W2 m c (Proc.devRef .tc main_arg6) = arg m c main_arg6 := W2_arg m c main_arg6 (by decide) (by decide)
  show StableHlo.after hostOps1 (W2 m c) (Proc.devRef .tc main_v13) = _
  after_results
  rw [e]
  rfl
theorem V3_v14 (c : Dev nD) :
    (V3 m c main_v14 : S1x128.Idx → EReal) = shapeCast S1x128 (arg m c main_arg8 : S128.Idx → EReal) shapeCasts_S128_S1x128 := by
  have e : W2 m c (Proc.devRef .tc main_arg8) = arg m c main_arg8 := W2_arg m c main_arg8 (by decide) (by decide)
  show StableHlo.after hostOps1 (W2 m c) (Proc.devRef .tc main_v14) = _
  after_results
  rw [e]
  rfl

theorem V5_arg (c : Dev nD) (r : Ref sig .tc) (h2 : r ∉ hostOps2_W) (h1' : ∀ w, Pipeline.arrRef spec1 w ≠ r)
    (h1 : r ∉ hostOps1_W) (h0 : ∀ w, Pipeline.arrRef spec0 w ≠ r) (h : r ∉ hostOps0_W) : V5 m c r = arg m c r :=
  (StableHlo.after_of_writes_sub hostOps2 _ hostOps2_writes h2).trans ((W4_of_ne m c r h1').trans (V3_arg m c r h1 h0 h))

theorem V5_out (c : Dev nD) (w : Fin cfg1.W) (h2 : Pipeline.arrRef spec1 w ∉ hostOps2_W) :
    V5 m c (Pipeline.arrRef spec1 w) = (dat1 (V3 m) c).arrAt w cfg1.N :=
  (StableHlo.after_of_writes_sub hostOps2 _ hostOps2_writes h2).trans (W4_arr m c w)

theorem V5_v15_0 (c : Dev nD) : (V5 m c main_v15_0 : S100000x128.Idx → EReal) = fun i => mZ1 (V3 m) c (i 0) (i 1) :=
  (V5_out m c 7 (by decide)).trans (final1_z (V3 m) c)
theorem V5_v15_1 (c : Dev nD) : (V5 m c main_v15_1 : S1x128.Idx → EReal) = fun i => Spec.mean (mZ1 (V3 m) c) (i 1) :=
  (V5_out m c 8 (by decide)).trans (final1_mean (V3 m) c)
theorem V5_v15_2 (c : Dev nD) : (V5 m c main_v15_2 : S1x128.Idx → EReal) = fun i => Spec.varK (mZ1 (V3 m) c) (i 1) :=
  (V5_out m c 9 (by decide)).trans (final1_var (V3 m) c)

theorem V5_v16 (c : Dev nD) :
    (V5 m c main_v16 : S1x128.Idx → EReal) = shapeCast S1x128 (arg m c main_arg9 : S128.Idx → EReal) shapeCasts_S128_S1x128 := by
  have e : W4 m c (Proc.devRef .tc main_arg9) = arg m c main_arg9 :=
    (W4_of_ne m c main_arg9 (by decide)).trans (V3_arg m c main_arg9 (by decide) (by decide) (by decide))
  show StableHlo.after hostOps2 (W4 m c) (Proc.devRef .tc main_v16) = _
  after_results
  rw [e]
  rfl
theorem V5_v17 (c : Dev nD) :
    (V5 m c main_v17 : S1x128.Idx → EReal) = shapeCast S1x128 (arg m c main_arg10 : S128.Idx → EReal) shapeCasts_S128_S1x128 := by
  have e : W4 m c (Proc.devRef .tc main_arg10) = arg m c main_arg10 :=
    (W4_of_ne m c main_arg10 (by decide)).trans (V3_arg m c main_arg10 (by decide) (by decide) (by decide))
  show StableHlo.after hostOps2 (W4 m c) (Proc.devRef .tc main_v17) = _
  after_results
  rw [e]
  rfl

theorem V7_out (c : Dev nD) (w : Fin cfg2.W) (h3 : Pipeline.arrRef spec2 w ∉ hostOps3_W) :
    V7 m c (Pipeline.arrRef spec2 w) = (dat2 (V5 m) c).arrAt w cfg2.N :=
  (StableHlo.after_of_writes_sub hostOps3 _ hostOps3_writes h3).trans (W6_arr m c w)

theorem V7_v18_0 (c : Dev nD) : (V7 m c main_v18_0 : S100000x128.Idx → EReal) = fun i => mH2 (V5 m) c (i 0) (i 1) :=
  (V7_out m c 5 (by decide)).trans (final2_h (V5 m) c)
theorem V7_v18_1 (c : Dev nD) : (V7 m c main_v18_1 : S1x128.Idx → EReal) = fun i => Spec.mean (mH2 (V5 m) c) (i 1) :=
  (V7_out m c 6 (by decide)).trans (final2_mean (V5 m) c)
theorem V7_v18_2 (c : Dev nD) : (V7 m c main_v18_2 : S1x128.Idx → EReal) = fun i => Spec.varK (mH2 (V5 m) c) (i 1) :=
  (V7_out m c 7 (by decide)).trans (final2_var (V5 m) c)

theorem V7_v19 (c : Dev nD) :
    (V7 m c main_v19 : S1x128.Idx → EReal) = shapeCast S1x128 (arg m c main_arg11 : S128.Idx → EReal) shapeCasts_S128_S1x128 := by
  have e : W6 m c (Proc.devRef .tc main_arg11) = arg m c main_arg11 :=
    (W6_of_ne m c main_arg11 (by decide)).trans (V5_arg m c main_arg11 (by decide) (by decide) (by decide) (by decide) (by decide))
  show StableHlo.after hostOps3 (W6 m c) (Proc.devRef .tc main_v19) = _
  after_results
  rw [e]
  rfl
theorem V7_v20 (c : Dev nD) :
    (V7 m c main_v20 : S1x128.Idx → EReal) = shapeCast S1x128 (arg m c main_arg12 : S128.Idx → EReal) shapeCasts_S128_S1x128 := by
  have e : W6 m c (Proc.devRef .tc main_arg12) = arg m c main_arg12 :=
    (W6_of_ne m c main_arg12 (by decide)).trans (V5_arg m c main_arg12 (by decide) (by decide) (by decide) (by decide) (by decide))
  show StableHlo.after hostOps3 (W6 m c) (Proc.devRef .tc main_v20) = _
  after_results
  rw [e]
  rfl

abbrev sX (c : Dev nD) : Spec.Mat 100000 32 := Spec.mat (arg m c main_arg0 : S100000x32.Idx → EReal)
abbrev sA (c : Dev nD) : Spec.Mat 100000 32 :=
  Spec.mat (aggK (F := Ideal) (arg m c main_arg0) (arg m c main_arg1) (arg m c main_arg2) : S100000x32.Idx → EReal)
abbrev sW1 (c : Dev nD) : Spec.Mat 32 128 := Spec.mat (arg m c main_arg3 : S32x128.Idx → EReal)
abbrev sb1 (c : Dev nD) : Spec.Row 128 := Spec.vec (arg m c main_arg4 : S128.Idx → EReal)
abbrev sg1 (c : Dev nD) : Spec.Row 128 := Spec.vec (arg m c main_arg5 : S128.Idx → EReal)
abbrev sbe1 (c : Dev nD) : Spec.Row 128 := Spec.vec (arg m c main_arg6 : S128.Idx → EReal)
abbrev sW2 (c : Dev nD) : Spec.Mat 128 128 := Spec.mat (arg m c main_arg7 : S128x128.Idx → EReal)
abbrev sb2 (c : Dev nD) : Spec.Row 128 := Spec.vec (arg m c main_arg8 : S128.Idx → EReal)
abbrev sg2 (c : Dev nD) : Spec.Row 128 := Spec.vec (arg m c main_arg9 : S128.Idx → EReal)
abbrev sbe2 (c : Dev nD) : Spec.Row 128 := Spec.vec (arg m c main_arg10 : S128.Idx → EReal)
abbrev sg3 (c : Dev nD) : Spec.Row 128 := Spec.vec (arg m c main_arg11 : S128.Idx → EReal)
abbrev sbe3 (c : Dev nD) : Spec.Row 128 := Spec.vec (arg m c main_arg12 : S128.Idx → EReal)

abbrev sZ1 (c : Dev nD) : Spec.Mat 100000 128 := Spec.lin (fun r q => sX m c r q + sA m c r q) (sW1 m c) (sb1 m c)
abbrev sH1 (c : Dev nD) : Spec.Mat 100000 128 :=
  Spec.bnrelu (sZ1 m c) (Spec.mean (sZ1 m c)) (Spec.varK (sZ1 m c)) (sg1 m c) (sbe1 m c)
abbrev sZ2 (c : Dev nD) : Spec.Mat 100000 128 := Spec.lin (sH1 m c) (sW2 m c) (sb2 m c)
abbrev sH2 (c : Dev nD) : Spec.Mat 100000 128 :=
  Spec.bnrelu (sZ2 m c) (Spec.mean (sZ2 m c)) (Spec.varK (sZ2 m c)) (sg2 m c) (sbe2 m c)

theorem stage0 (c : Dev nD) : mZ0 (V1 m) c = sZ1 m c := by
  have hX : mX0 (V1 m) c = sX m c := congrArg Spec.mat (V1_arg m c main_arg0 (by decide))
  have hA : mA0 (V1 m) c = sA m c := congrArg Spec.mat (V1_v9 m c)
  have hW : mW0 (V1 m) c = sW1 m c := congrArg Spec.mat (V1_arg m c main_arg3 (by decide))
  have hB : mB0 (V1 m) c = sb1 m c := row_of_cast (V1_v10 m c)
  show Spec.lin (fun r q => mX0 (V1 m) c r q + mA0 (V1 m) c r q) (mW0 (V1 m) c) (mB0 (V1 m) c) = _
  rw [hX, hA, hW, hB]

theorem stage1 (c : Dev nD) : mZ1 (V3 m) c = sZ2 m c := by
  have hZ : mZin1 (V3 m) c = sZ1 m c := mat_of_eq (V3_v11_0 m c) (stage0 m c)
  have hMu : mMu1 (V3 m) c = Spec.mean (sZ1 m c) := row_of_eq (V3_v11_1 m c) (congrArg Spec.mean (stage0 m c))
  have hVa : mVa1 (V3 m) c = Spec.varK (sZ1 m c) := row_of_eq (V3_v11_2 m c) (congrArg Spec.varK (stage0 m c))
  have hG : mG1 (V3 m) c = sg1 m c := row_of_cast (V3_v12 m c)
  have hBe : mBe1 (V3 m) c = sbe1 m c := row_of_cast (V3_v13 m c)
  have hW : mW1 (V3 m) c = sW2 m c := congrArg Spec.mat (V3_arg m c main_arg7 (by decide) (by decide) (by decide))
  have hB : mB1 (V3 m) c = sb2 m c := row_of_cast (V3_v14 m c)
  show Spec.lin (Spec.bnrelu (mZin1 (V3 m) c) (mMu1 (V3 m) c) (mVa1 (V3 m) c) (mG1 (V3 m) c) (mBe1 (V3 m) c))
    (mW1 (V3 m) c) (mB1 (V3 m) c) = _
  rw [hZ, hMu, hVa, hG, hBe, hW, hB]

theorem stage2 (c : Dev nD) : mH2 (V5 m) c = sH2 m c := by
  have hZ : mZin2 (V5 m) c = sZ2 m c := mat_of_eq (V5_v15_0 m c) (stage1 m c)
  have hMu : mMu2 (V5 m) c = Spec.mean (sZ2 m c) := row_of_eq (V5_v15_1 m c) (congrArg Spec.mean (stage1 m c))
  have hVa : mVa2 (V5 m) c = Spec.varK (sZ2 m c) := row_of_eq (V5_v15_2 m c) (congrArg Spec.varK (stage1 m c))
  have hG : mG2 (V5 m) c = sg2 m c := row_of_cast (V5_v16 m c)
  have hBe : mBe2 (V5 m) c = sbe2 m c := row_of_cast (V5_v17 m c)
  show Spec.bnrelu (mZin2 (V5 m) c) (mMu2 (V5 m) c) (mVa2 (V5 m) c) (mG2 (V5 m) c) (mBe2 (V5 m) c) = _
  rw [hZ, hMu, hVa, hG, hBe]

theorem kernel_result (c : Dev nD) :
    ((dat3 (V7 m) c).arrAt 5 cfg3.N : S100000x128.Idx → EReal) = fun i =>
      Spec.outK (sX m c) (sA m c) (sW1 m c) (sb1 m c) (sg1 m c) (sbe1 m c) (sW2 m c) (sb2 m c) (sg2 m c) (sbe2 m c) (sg3 m c) (sbe3 m c)
        (i 0) (i 1) := by
  have hZ : mZin3 (V7 m) c = sH2 m c := mat_of_eq (V7_v18_0 m c) (stage2 m c)
  have hMu : mMu3 (V7 m) c = Spec.mean (sH2 m c) := row_of_eq (V7_v18_1 m c) (congrArg Spec.mean (stage2 m c))
  have hVa : mVa3 (V7 m) c = Spec.varK (sH2 m c) := row_of_eq (V7_v18_2 m c) (congrArg Spec.varK (stage2 m c))
  have hG : mG3 (V7 m) c = sg3 m c := row_of_cast (V7_v19 m c)
  have hBe : mBe3 (V7 m) c = sbe3 m c := row_of_cast (V7_v20 m c)
  rw [final3 (V7 m) c]
  show (fun i : S100000x128.Idx =>
    Spec.bnrelu (mZin3 (V7 m) c) (mMu3 (V7 m) c) (mVa3 (V7 m) c) (mG3 (V7 m) c) (mBe3 (V7 m) c) (i 0) (i 1)) = _
  rw [hZ, hMu, hVa, hG, hBe]
  rfl

end Cert.KernelIdeal.Hand

end
-- ==== Proof.Ref.lean ====
import proofs.«108410_j49581102465153_1_alg».proof.Proof.Gen.ReferenceIdeal.Run
import proofs.«108410_j49581102465153_1_alg».proof.Proof.Gen.ReferenceIdeal.Read
import proofs.«108410_j49581102465153_1_alg».proof.Proof.Agg
import proofs.«108410_j49581102465153_1_alg».proof.Proof.Spec
import proofs.«108410_j49581102465153_1_alg».proof.Proof.LibPlainDot
import proofs.«108410_j49581102465153_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Facts₀
open Cert.Spec (mat vec cN cEps)

def rows (v : FVec Ideal S128 .f32) : FVec Ideal S100000x128 .f32 :=
  broadcastInDim S100000x128 ![0, 1] bcast_S1x128_S100000x128_0_1 (broadcastInDim S1x128 ![1] bcast_S128_S1x128_1 v)

theorem rows_apply (v : FVec Ideal S128 .f32) (r : Fin 100000) (j : Fin 128) : rows v (ix2 r j) = v (ix1 j) := by
  unfold rows
  refine (broadcastInDim_apply _ _ _ (ix2 r j) (ix2 (0 : Fin 1) j) fun a => ?_).trans ?_
  · match a with
    | ⟨0, _⟩ => rfl
    | ⟨1, _⟩ => rfl
  · refine broadcastInDim_apply _ _ _ _ (ix1 j) fun a => ?_
    match a with
    | ⟨0, _⟩ => rfl

def rowConst (w : BitVec 32) : FVec Ideal S128 .f32 :=
  broadcastInDim S128 ![] bcast_S_S128 (constant (F := Ideal) S_ .f32 w)

def colSum (Z : FVec Ideal S100000x128 .f32) : FVec Ideal S128 .f32 :=
  Host.reduceAdd Z (constant (F := Ideal) S_ .f32 0x00000000#32) reducesTo_S100000x128_S128_d0 h_S_

theorem colSum_apply (Z : FVec Ideal S100000x128 .f32) (j : Fin 128) :
    colSum Z (ix1 j) = ∑ r : Fin 100000, Z (ix2 r j) := by
  have hR : S100000x128.Reduces [0] S128 := by decide
  unfold colSum Host.reduceAdd
  rw [Ideal.hostReduceAdd_def, Ideal.hostReduceAdd_single _ hR]
  show Ideal.ofBits .f32 0x00000000#32 + _ = _
  rw [Ideal.ofBits_zero_f32, zero_add]
  refine Finset.sum_congr rfl fun k _ => ?_
  refine congrArg Z (funext fun ax => Fin.ext ?_)
  rw [Shape.Reduces.lift_val]
  match ax with
  | ⟨0, _⟩ => rfl
  | ⟨1, _⟩ => rfl

def meanOp (Z : FVec Ideal S100000x128 .f32) : FVec Ideal S128 .f32 :=
  Host.divf (colSum Z) (rowConst 0x47C35000#32)

theorem meanOp_apply (Z : FVec Ideal S100000x128 .f32) (j : Fin 128) :
    meanOp Z (ix1 j) = Spec.mean (mat Z) j := by
  show Ideal.div (colSum Z (ix1 j)) (Ideal.ofBits .f32 0x47C35000#32) = _
  rw [colSum_apply]
  rfl

def devOp (Z : FVec Ideal S100000x128 .f32) : FVec Ideal S100000x128 .f32 := subf Z (rows (meanOp Z))

theorem devOp_apply (Z : FVec Ideal S100000x128 .f32) (r : Fin 100000) (j : Fin 128) :
    devOp Z (ix2 r j) = mat Z r j - Spec.mean (mat Z) j := by
  show Z (ix2 r j) - rows (meanOp Z) (ix2 r j) = _
  rw [rows_apply, meanOp_apply]

def varOp (Z : FVec Ideal S100000x128 .f32) : FVec Ideal S128 .f32 :=
  Host.divf (colSum (mulf (devOp Z) (devOp Z))) (rowConst 0x47C35000#32)

theorem varOp_apply (Z : FVec Ideal S100000x128 .f32) (j : Fin 128) :
    varOp Z (ix1 j) = Spec.varR (mat Z) j := by
  show Ideal.div (colSum (mulf (devOp Z) (devOp Z)) (ix1 j)) (Ideal.ofBits .f32 0x47C35000#32) = _
  rw [colSum_apply]
  unfold Spec.varR Spec.colSum
  refine congrArg (fun s => Ideal.div s cN) (Finset.sum_congr rfl fun r _ => ?_)
  show devOp Z (ix2 r j) * devOp Z (ix2 r j) = _
  rw [devOp_apply]

def bnreluOp (Z : FVec Ideal S100000x128 .f32) (g be : FVec Ideal S128 .f32) : FVec Ideal S100000x128 .f32 :=
  maximumf
    (addf (mulf (mulf (rows g) (devOp Z)) (rows (Host.rsqrt (addf (varOp Z) (rowConst 0x3727C5AC#32))))) (rows be))
    (broadcastInDim S100000x128 ![] bcast_S_S100000x128 (constant (F := Ideal) S_ .f32 0x00000000#32))

theorem bnreluOp_apply (Z : FVec Ideal S100000x128 .f32) (g be : FVec Ideal S128 .f32) (r : Fin 100000) (j : Fin 128) :
    bnreluOp Z g be (ix2 r j)
      = Spec.bnrelu (mat Z) (Spec.mean (mat Z)) (Spec.varR (mat Z)) (vec g) (vec be) r j := by
  show max (rows g (ix2 r j) * devOp Z (ix2 r j)
        * rows (Host.rsqrt (addf (varOp Z) (rowConst 0x3727C5AC#32))) (ix2 r j) + rows be (ix2 r j))
      (Ideal.ofBits .f32 0x00000000#32) = _
  rw [rows_apply, rows_apply, rows_apply, devOp_apply, Ideal.ofBits_zero_f32]
  show max (g (ix1 j) * _ * Ideal.rsqrt (varOp Z (ix1 j) + Ideal.ofBits .f32 0x3727C5AC#32) + be (ix1 j)) 0 = _
  rw [varOp_apply]
  rfl

theorem mat_bnreluOp (Z : FVec Ideal S100000x128 .f32) (g be : FVec Ideal S128 .f32) :
    mat (bnreluOp Z g be) = Spec.bnrelu (mat Z) (Spec.mean (mat Z)) (Spec.varR (mat Z)) (vec g) (vec be) :=
  funext fun r => funext fun j => bnreluOp_apply Z g be r j

def linOp {K : ℕ} (H : FVec Ideal ⟨2, ![100000, K]⟩ .f32) (W : FVec Ideal ⟨2, ![K, 128]⟩ .f32) (b : FVec Ideal S128 .f32) :
    FVec Ideal S100000x128 .f32 :=
  addf (Host.dotGeneral (DotDims.plain 100000 K 128) none H W) (rows b)

theorem mat_linOp {K : ℕ} (H : FVec Ideal ⟨2, ![100000, K]⟩ .f32) (W : FVec Ideal ⟨2, ![K, 128]⟩ .f32) (b : FVec Ideal S128 .f32) :
    mat (linOp H W b) = Spec.lin (mat H) (mat W) (vec b) :=
  funext fun r => funext fun j => by
    show FloatOps.dotGeneral (DotDims.plain 100000 K 128) none .single H W (ix2 r j) + rows b (ix2 r j) = _
    rw [rows_apply, PlainDot.dotGeneral_apply]
    rfl

open Cert.ReferenceIdeal.Read

theorem mat_addf (a b : FVec Ideal S100000x32 .f32) : mat (addf a b) = fun r q => mat a r q + mat b r q := rfl

variable (x : FVec Ideal S100000x32 .f32) (src dst : IVec S1600000 32) (W1 : FVec Ideal S32x128 .f32)
  (b1 g1 be1 : FVec Ideal S128 .f32) (W2 : FVec Ideal S128x128 .f32) (b2 g2 be2 g3 be3 : FVec Ideal S128 .f32)

theorem v14_eq : val_main_v14 (F := Ideal) x src dst W1 b1 = linOp (addf x (aggR (F := Ideal) x src dst)) W1 b1 := rfl

theorem v40_eq : val_main_v40 (F := Ideal) x src dst W1 b1 g1 be1 = bnreluOp (val_main_v14 (F := Ideal) x src dst W1 b1) g1 be1 := rfl

theorem v44_eq : val_main_v44 (F := Ideal) x src dst W1 b1 g1 be1 W2 b2
    = linOp (val_main_v40 (F := Ideal) x src dst W1 b1 g1 be1) W2 b2 := rfl

theorem v70_eq : val_main_v70 (F := Ideal) x src dst W1 b1 g1 be1 W2 b2 g2 be2
    = bnreluOp (val_main_v44 (F := Ideal) x src dst W1 b1 g1 be1 W2 b2) g2 be2 := rfl

theorem v96_eq : val_main_v96 (F := Ideal) x src dst W1 b1 g1 be1 W2 b2 g2 be2 g3 be3
    = bnreluOp (val_main_v70 (F := Ideal) x src dst W1 b1 g1 be1 W2 b2 g2 be2) g3 be3 := rfl

theorem ref_result :
    val_main_v96 (F := Ideal) x src dst W1 b1 g1 be1 W2 b2 g2 be2 g3 be3
      = fun i => Spec.outR (mat x) (mat (aggR (F := Ideal) x src dst)) (mat W1) (vec b1) (vec g1) (vec be1) (mat W2) (vec b2)
          (vec g2) (vec be2) (vec g3) (vec be3) (i 0) (i 1) := by
  funext i
  have hi : val_main_v96 (F := Ideal) x src dst W1 b1 g1 be1 W2 b2 g2 be2 g3 be3 i
      = mat (val_main_v96 (F := Ideal) x src dst W1 b1 g1 be1 W2 b2 g2 be2 g3 be3) (i 0) (i 1) :=
    congrArg _ (eq_ix2 i)
  rw [hi, v96_eq, mat_bnreluOp, v70_eq, mat_bnreluOp, v44_eq, mat_linOp, v40_eq, mat_bnreluOp, v14_eq, mat_linOp,
    mat_addf]
  rfl

open Idealize.ShloMosaic.TcCoe Idealize.SL.Sem

theorem ref_run_result (m : (ℓ : Loc nD τ sig) → Buf (Elt Ideal) ℓ) (c : Dev nD) :
    Cert.ReferenceIdeal.Value.res_main_v96 (F := Ideal) m c
      = fun i => Spec.outR (mat (m ((c.tc : Thread nD τ).loc main_arg0) : FVec Ideal S100000x32 .f32))
          (mat (aggR (F := Ideal) (m ((c.tc : Thread nD τ).loc main_arg0)) (m ((c.tc : Thread nD τ).loc main_arg1))
            (m ((c.tc : Thread nD τ).loc main_arg2))))
          (mat (m ((c.tc : Thread nD τ).loc main_arg3) : FVec Ideal S32x128 .f32))
          (vec (m ((c.tc : Thread nD τ).loc main_arg4) : FVec Ideal S128 .f32))
          (vec (m ((c.tc : Thread nD τ).loc main_arg5) : FVec Ideal S128 .f32))
          (vec (m ((c.tc : Thread nD τ).loc main_arg6) : FVec Ideal S128 .f32))
          (mat (m ((c.tc : Thread nD τ).loc main_arg7) : FVec Ideal S128x128 .f32))
          (vec (m ((c.tc : Thread nD τ).loc main_arg8) : FVec Ideal S128 .f32))
          (vec (m ((c.tc : Thread nD τ).loc main_arg9) : FVec Ideal S128 .f32))
          (vec (m ((c.tc : Thread nD τ).loc main_arg10) : FVec Ideal S128 .f32))
          (vec (m ((c.tc : Thread nD τ).loc main_arg11) : FVec Ideal S128 .f32))
          (vec (m ((c.tc : Thread nD τ).loc main_arg12) : FVec Ideal S128 .f32)) (i 0) (i 1) :=
  (val_main_v96_eq (F := Ideal) m c).trans (ref_result _ _ _ _ _ _ _ _ _ _ _ _ _)

end Cert.ReferenceIdeal.RefValue

end
-- ==== Proof.Alg.lean ====
import proofs.«108410_j49581102465153_1_alg».proof.Proof.Spec
import Idealize.ShloMosaic.PureOps.Ideal
import Idealize.ShloMosaic.PureOps.Ideal.Laws
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Data.Fintype.Card
import Mathlib.Analysis.Real.Sqrt
import Mathlib.Tactic.Ring
import Mathlib.Tactic.Positivity
import Mathlib.Tactic.Linarith
import Mathlib.Tactic.NormNum

noncomputable section

open scoped BigOperators

namespace Cert.Spec

open Idealize.ShloMosaic

variable {n k d : ℕ}

theorem cN_eq : cN = ((100000 : ℝ) : EReal) := by
  simp [cN, Ideal.ofBits, Ideal.ieee, -EReal.coe_mul]; norm_num

theorem cEps_eq : cEps = (((10995116 : ℝ) * (2 : ℝ) ^ (-40 : ℤ) : ℝ) : EReal) := by
  simp [cEps, Ideal.ofBits, Ideal.ieee, -EReal.coe_mul]

theorem cEps_pos : ∃ e : ℝ, 0 < e ∧ cEps = (e : EReal) :=
  ⟨(10995116 : ℝ) * (2 : ℝ) ^ (-40 : ℤ), by positivity, cEps_eq⟩

theorem IsReal.zero : IsReal (0 : EReal) := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max_zero {a : EReal} (ha : IsReal a) : IsReal (max a 0) := by
  rcases le_total a 0 with h | h
  · rw [max_eq_right h]; exact IsReal.zero
  · rw [max_eq_left h]; exact ha

theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem div_cN_coe (x : ℝ) : Ideal.div (x : EReal) cN = ((x / 100000 : ℝ) : EReal) := by
  rw [cN_eq, Ideal.div_coe (by norm_num : (100000 : ℝ) ≠ 0), ← EReal.coe_mul, mul_one_div]

theorem IsReal.div_cN {a : EReal} (ha : IsReal a) : IsReal (Ideal.div a cN) := by
  obtain ⟨x, rfl⟩ := ha; exact ⟨x / 100000, div_cN_coe x⟩

theorem isReal_rsqrt_add_cEps (v : ℝ) (hv : 0 ≤ v) : IsReal (Ideal.rsqrt ((v : EReal) + cEps)) := by
  obtain ⟨e, he, hce⟩ := cEps_pos
  have hpos : 0 < v + e := by linarith
  rw [hce, ← EReal.coe_add, Ideal.rsqrt_coe, if_neg (not_lt.mpr hpos.le), if_neg hpos.ne']
  exact ⟨_, rfl⟩

theorem isReal_lin (H : Mat n k) (W : Mat k d) (b : Row d) (hH : ∀ r q, IsReal (H r q)) (hW : ∀ q j, IsReal (W q j))
    (hb : ∀ j, IsReal (b j)) : ∀ r j, IsReal (lin H W b r j) := fun r j =>
  (IsReal.sum _ _ fun q _ => (hH r q).mul (hW q j)).add (hb j)

theorem isReal_colSum (Z : Mat n d) (hZ : ∀ r j, IsReal (Z r j)) : ∀ j, IsReal (colSum Z j) := fun j =>
  IsReal.sum _ _ fun r _ => hZ r j

theorem isReal_mean (Z : Mat n d) (hZ : ∀ r j, IsReal (Z r j)) : ∀ j, IsReal (mean Z j) := fun j =>
  (isReal_colSum Z hZ j).div_cN

theorem colSum_coe (z : Fin n → Fin d → ℝ) (j : Fin d) :
    colSum (fun r j => (z r j : EReal)) j = ((∑ r, z r j : ℝ) : EReal) :=
  (coe_sum _ _).symm

theorem mean_coe (z : Fin n → Fin d → ℝ) (j : Fin d) :
    mean (fun r j => (z r j : EReal)) j = (((∑ r, z r j) / 100000 : ℝ) : EReal) := by
  unfold mean; rw [colSum_coe, div_cN_coe]

theorem varK_coe (z : Fin n → Fin d → ℝ) (j : Fin d) :
    varK (fun r j => (z r j : EReal)) j
      = (((∑ r, z r j * z r j) / 100000 - (∑ r, z r j) / 100000 * ((∑ r, z r j) / 100000) : ℝ) : EReal) := by
  have hsq : (fun r j => (z r j : EReal) * (z r j : EReal)) = fun r j => ((z r j * z r j : ℝ) : EReal) :=
    funext fun r => funext fun j => (EReal.coe_mul _ _).symm
  show Ideal.div (colSum (fun r j => (z r j : EReal) * (z r j : EReal)) j) cN
      - mean (fun r j => (z r j : EReal)) j * mean (fun r j => (z r j : EReal)) j = _
  rw [hsq, colSum_coe, div_cN_coe, mean_coe, ← EReal.coe_mul, ← EReal.coe_sub]

theorem varR_coe (z : Fin n → Fin d → ℝ) (j : Fin d) :
    varR (fun r j => (z r j : EReal)) j
      = (((∑ r, (z r j - (∑ r', z r' j) / 100000) * (z r j - (∑ r', z r' j) / 100000)) / 100000 : ℝ) : EReal) := by
  have hdev : (fun r j => ((z r j : EReal) - mean (fun r j => (z r j : EReal)) j)
        * ((z r j : EReal) - mean (fun r j => (z r j : EReal)) j))
      = fun r j => (((z r j - (∑ r', z r' j) / 100000) * (z r j - (∑ r', z r' j) / 100000) : ℝ) : EReal) :=
    funext fun r => funext fun j => by rw [mean_coe, ← EReal.coe_sub, ← EReal.coe_mul]
  show Ideal.div (colSum (fun r j => ((z r j : EReal) - mean (fun r j => (z r j : EReal)) j)
        * ((z r j : EReal) - mean (fun r j => (z r j : EReal)) j)) j) cN = _
  rw [hdev, colSum_coe, div_cN_coe]

theorem sum_sq_dev (f : Fin n → ℝ) (m : ℝ) :
    ∑ r, (f r - m) * (f r - m) = (∑ r, f r * f r) - 2 * m * (∑ r, f r) + (n : ℝ) * (m * m) := by
  have h : ∀ r, (f r - m) * (f r - m) = f r * f r - 2 * m * f r + m * m := fun r => by ring
  simp only [h]
  rw [Finset.sum_add_distrib, Finset.sum_sub_distrib, ← Finset.mul_sum, Finset.sum_const, Finset.card_univ,
    Fintype.card_fin, nsmul_eq_mul]

theorem real_var_identity (hn : (n : ℝ) = 100000) (f : Fin n → ℝ) :
    (∑ r, f r * f r) / 100000 - (∑ r, f r) / 100000 * ((∑ r, f r) / 100000)
      = (∑ r, (f r - (∑ r', f r') / 100000) * (f r - (∑ r', f r') / 100000)) / 100000 := by
  rw [sum_sq_dev, hn]; ring

theorem varR_nonneg_real (z : Fin n → Fin d → ℝ) (j : Fin d) :
    0 ≤ (∑ r, (z r j - (∑ r', z r' j) / 100000) * (z r j - (∑ r', z r' j) / 100000)) / 100000 :=
  div_nonneg (Finset.sum_nonneg fun r _ => mul_self_nonneg _) (by norm_num)

theorem varK_eq_varR {n d : ℕ} (Z : Mat n d) (hn : (n : ℝ) = 100000) (hZ : ∀ r j, IsReal (Z r j)) :
    varK Z = varR Z := by
  choose z hz using hZ
  obtain rfl : Z = fun r j => (z r j : EReal) := funext fun r => funext fun j => hz r j
  funext j
  rw [varK_coe, varR_coe, real_var_identity hn]

theorem isReal_rsqrt_varR (Z : Mat n d) (hZ : ∀ r j, IsReal (Z r j)) :
    ∀ j, IsReal (Ideal.rsqrt (varR Z j + cEps)) := by
  choose z hz using hZ
  obtain rfl : Z = fun r j => (z r j : EReal) := funext fun r => funext fun j => hz r j
  intro j; rw [varR_coe]; exact isReal_rsqrt_add_cEps _ (varR_nonneg_real z j)

theorem isReal_bnrelu (Z : Mat n d) (g be : Row d) (hZ : ∀ r j, IsReal (Z r j)) (hg : ∀ j, IsReal (g j))
    (hbe : ∀ j, IsReal (be j)) : ∀ r j, IsReal (bnrelu Z (mean Z) (varR Z) g be r j) := by
  intro r j
  show IsReal (max (g j * (Z r j - mean Z j) * Ideal.rsqrt (varR Z j + cEps) + be j) 0)
  exact ((((hg j).mul ((hZ r j).sub (isReal_mean Z hZ j))).mul (isReal_rsqrt_varR Z hZ j)).add (hbe j)).max_zero

theorem bnrelu_varK_eq (Z : Mat n d) (g be : Row d) (hn : (n : ℝ) = 100000) (hZ : ∀ r j, IsReal (Z r j)) :
    bnrelu Z (mean Z) (varK Z) g be = bnrelu Z (mean Z) (varR Z) g be := by
  rw [varK_eq_varR Z hn hZ]

theorem outK_eq_outR {n k d : ℕ} (X A : Mat n k) (W1 : Mat k d) (b1 g1 be1 : Row d) (W2 : Mat d d)
    (b2 g2 be2 g3 be3 : Row d) (hn : (n : ℝ) = 100000)
    (hX : ∀ r q, IsReal (X r q)) (hA : ∀ r q, IsReal (A r q)) (hW1 : ∀ q j, IsReal (W1 q j))
    (hb1 : ∀ j, IsReal (b1 j)) (hg1 : ∀ j, IsReal (g1 j)) (hbe1 : ∀ j, IsReal (be1 j))
    (hW2 : ∀ q j, IsReal (W2 q j)) (hb2 : ∀ j, IsReal (b2 j)) (hg2 : ∀ j, IsReal (g2 j))
    (hbe2 : ∀ j, IsReal (be2 j)) (hg3 : ∀ j, IsReal (g3 j)) (hbe3 : ∀ j, IsReal (be3 j)) :
    outK X A W1 b1 g1 be1 W2 b2 g2 be2 g3 be3 = outR X A W1 b1 g1 be1 W2 b2 g2 be2 g3 be3 := by
  have hZ1 := isReal_lin (fun r q => X r q + A r q) W1 b1 (fun r q => (hX r q).add (hA r q)) hW1 hb1
  have hH1 := isReal_bnrelu _ g1 be1 hZ1 hg1 hbe1
  have hZ2 := isReal_lin _ W2 b2 hH1 hW2 hb2
  have hH2 := isReal_bnrelu _ g2 be2 hZ2 hg2 hbe2
  simp only [outK, outR]
  rw [bnrelu_varK_eq _ g1 be1 hn hZ1, bnrelu_varK_eq _ g2 be2 hn hZ2, bnrelu_varK_eq _ g3 be3 hn hH2]

end Cert.Spec

end
-- ==== Proof.Fin.lean ====
import proofs.«108410_j49581102465153_1_alg».proof.Defs
import proofs.«108410_j49581102465153_1_alg».proof.Proof.Gen.KernelIdeal
import proofs.«108410_j49581102465153_1_alg».proof.Proof.Gen.Pre_finite_inputs
import proofs.«108410_j49581102465153_1_alg».proof.Proof.Spec
import proofs.«108410_j49581102465153_1_alg».proof.Proof.Alg
import proofs.«108410_j49581102465153_1_alg».proof.Proof.Agg
import Idealize.ShloMosaic.Lib.ReduceAll
import Idealize.ShloMosaic.Lib.ValueIdx
import Idealize.ShloMosaic.PureOps.Ideal.Laws

noncomputable section

open scoped BigOperators

namespace Cert.KernelIdeal.Hand

open Idealize.ShloMosaic Idealize.SL.Sem Cert.KernelIdeal

theorem ofBits_inf : Ideal.ofBits .f32 0x7F800000#32 = (⊤ : EReal) := by
  simp [Ideal.ofBits, Ideal.ieee]

theorem isReal_of_abs_lt_top (a : EReal) (h : max a (-a) < ⊤) : Spec.IsReal a := by
  induction a using EReal.rec with
  | bot => exact absurd h (by simp)
  | coe x => exact ⟨x, rfl⟩
  | top => exact absurd h (by simp)

theorem isReal_of_cmp (a : EReal)
    (h : Ideal.cmp .olt (max a (-a)) (Ideal.ofBits .f32 0x7F800000#32) = 1#1) : Spec.IsReal a := by
  rw [ofBits_inf] at h
  refine isReal_of_abs_lt_top a ?_
  by_contra hn
  simp [Ideal.cmp, hn] at h

instance subsingletonScalarIdx : Subsingleton Cert.Pre_finite_inputs.S_.Idx := ⟨fun a b => funext fun d => d.elim0⟩

theorem real_of_all {s : Shape} {axes : List (Fin s.rank)} (x : s.Idx → EReal)
    (bc : Cert.Pre_finite_inputs.S_.BroadcastsInDim s (![] : Fin 0 → Fin s.rank))
    (red : s.ReducesTo axes Cert.Pre_finite_inputs.S_) (hu : 0 < Cert.Pre_finite_inputs.S_.numel)
    (j : Cert.Pre_finite_inputs.S_.Idx)
    (e : Host.reduce IntOp.andi
        (cmpf (F := Ideal) (φ := .f32) .olt (Host.absf (F := Ideal) (φ := .f32) x)
          (broadcastInDim s ![] bc (constant (F := Ideal) Cert.Pre_finite_inputs.S_ .f32 0x7F800000#32)))
        (constantI Cert.Pre_finite_inputs.S_ 1 1#1) red hu j = 1#1) :
    ∀ i, Spec.IsReal (x i) := fun i =>
  isReal_of_cmp (x i) (Host.reduce_andi_all _ _ red hu j e i)

theorem real_of_pre (m : (ℓ : Loc nD τ sig) → Buf (Elt Ideal) ℓ) (h : Cert.Pre_KernelIdeal m) (c : Dev nD) :
    (∀ i, Spec.IsReal ((m ((c.tc : Thread nD τ).loc main_arg0) : S100000x32.Idx → EReal) i))
    ∧ (∀ i, Spec.IsReal ((m ((c.tc : Thread nD τ).loc main_arg3) : S32x128.Idx → EReal) i))
    ∧ (∀ i, Spec.IsReal ((m ((c.tc : Thread nD τ).loc main_arg4) : S128.Idx → EReal) i))
    ∧ (∀ i, Spec.IsReal ((m ((c.tc : Thread nD τ).loc main_arg5) : S128.Idx → EReal) i))
    ∧ (∀ i, Spec.IsReal ((m ((c.tc : Thread nD τ).loc main_arg6) : S128.Idx → EReal) i))
    ∧ (∀ i, Spec.IsReal ((m ((c.tc : Thread nD τ).loc main_arg7) : S128x128.Idx → EReal) i))
    ∧ (∀ i, Spec.IsReal ((m ((c.tc : Thread nD τ).loc main_arg8) : S128.Idx → EReal) i))
    ∧ (∀ i, Spec.IsReal ((m ((c.tc : Thread nD τ).loc main_arg9) : S128.Idx → EReal) i))
    ∧ (∀ i, Spec.IsReal ((m ((c.tc : Thread nD τ).loc main_arg10) : S128.Idx → EReal) i))
    ∧ (∀ i, Spec.IsReal ((m ((c.tc : Thread nD τ).loc main_arg11) : S128.Idx → EReal) i))
    ∧ (∀ i, Spec.IsReal ((m ((c.tc : Thread nD τ).loc main_arg12) : S128.Idx → EReal) i)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all _ _ _ _ _ e0, real_of_all _ _ _ _ _ e3, real_of_all _ _ _ _ _ e4, real_of_all _ _ _ _ _ e5,
    real_of_all _ _ _ _ _ e6, real_of_all _ _ _ _ _ e7, real_of_all _ _ _ _ _ e8, real_of_all _ _ _ _ _ e9,
    real_of_all _ _ _ _ _ e10, real_of_all _ _ _ _ _ e11, real_of_all _ _ _ _ _ e12⟩

theorem gather_real {s si t : Shape} {w : Nat} (d : GatherDims s si t) (x : s.Idx → EReal) (idx : IVec si w)
    (hx : ∀ i, Spec.IsReal (x i)) : ∀ j, Spec.IsReal (Host.gather d x idx j) := fun _ => hx _

theorem scatterAdd_real {s si u : Shape} {w : Nat} (d : ScatterDims s si u) (x : FVec Ideal s .f32) (idx : IVec si w)
    (upd : FVec Ideal u .f32) (hx : ∀ i, Spec.IsReal (x i)) (hu : ∀ j, Spec.IsReal (upd j)) :
    ∀ i, Spec.IsReal (Host.scatterAdd d x idx upd i) := by
  intro i
  unfold Host.scatterAdd
  rw [Ideal.hostScatterAdd_def]
  unfold Ideal.hostScatterAdd
  exact (hx i).add (Spec.IsReal.sum _ _ fun j _ => hu j)

theorem aggK_real (x : S100000x32.Idx → EReal) (src dst : IVec S1600000 32) (hx : ∀ i, Spec.IsReal (x i)) :
    ∀ i, Spec.IsReal (aggK (F := Ideal) x src dst i) := by
  unfold aggK
  refine scatterAdd_real _ _ _ _ (fun i => ?_) (gather_real _ _ _ hx)
  show Spec.IsReal (Ideal.ofBits .f32 0x00000000#32)
  rw [Ideal.ofBits_zero_f32]
  exact Spec.IsReal.zero

end Cert.KernelIdeal.Hand

end
-- ==== Proof.lean ====
import proofs.«108410_j49581102465153_1_alg».proof.Defs
import proofs.«108410_j49581102465153_1_alg».proof.Proof.Gen.Kernel
import proofs.«108410_j49581102465153_1_alg».proof.Proof.Gen.KernelIdeal
import proofs.«108410_j49581102465153_1_alg».proof.Proof.Gen.ReferenceIdeal
import proofs.«108410_j49581102465153_1_alg».proof.Proof.Gen.ReferenceIdeal.Run
import proofs.«108410_j49581102465153_1_alg».proof.Proof.Gen.Pre_finite_inputs
import proofs.«108410_j49581102465153_1_alg».proof.Proof.K.Run
import proofs.«108410_j49581102465153_1_alg».proof.Proof.KI.Run
import proofs.«108410_j49581102465153_1_alg».proof.Proof.KI.Chain
import proofs.«108410_j49581102465153_1_alg».proof.Proof.Ref
import proofs.«108410_j49581102465153_1_alg».proof.Proof.Alg
import proofs.«108410_j49581102465153_1_alg».proof.Proof.Fin
import proofs.«108410_j49581102465153_1_alg».proof.Proof.Agg

noncomputable section

namespace Cert.Proof

open Idealize.ShloMosaic Idealize.ShloMosaic.TcCoe Idealize.SL.Sem
open Cert.KernelIdeal Cert.KernelIdeal.Hand

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

-- On real arguments the mean of squares less the squared mean is the mean of squared deviations, so the two networks agree.
theorem spec_eq (m : (ℓ : Loc nD τ sig) → Buf (Elt Ideal) ℓ) (hpre : Cert.Pre_KernelIdeal m) (c : Dev nD) (i : S100000x128.Idx) :
    Spec.outR (sX m c) (sA m c) (sW1 m c) (sb1 m c) (sg1 m c) (sbe1 m c) (sW2 m c) (sb2 m c) (sg2 m c) (sbe2 m c) (sg3 m c) (sbe3 m c) (i 0) (i 1)
      = Spec.outK (sX m c) (sA m c) (sW1 m c) (sb1 m c) (sg1 m c) (sbe1 m c) (sW2 m c) (sb2 m c) (sg2 m c) (sbe2 m c) (sg3 m c) (sbe3 m c) (i 0) (i 1) := by
  obtain ⟨r0, r3, r4, r5, r6, r7, r8, r9, r10, r11, r12⟩ := real_of_pre m hpre c
  exact (congrFun (congrFun (Spec.outK_eq_outR _ _ _ _ _ _ _ _ _ _ _ _ (by norm_num)
    (fun r q => r0 _) (fun r q => aggK_real _ _ _ r0 _) (fun q j => r3 _) (fun j => r4 _) (fun j => r5 _) (fun j => r6 _)
    (fun q j => r7 _) (fun j => r8 _) (fun j => r9 _) (fun j => r10 _) (fun j => r11 _) (fun j => r12 _)) (i 0)) (i 1)).symm

theorem algebraic : Cert.algebraic_KernelIdeal_ReferenceIdeal := by
  intro m ρ m' ρ' hpre hagree
  refine ⟨fun c => (Cert.KernelIdeal.Hand.dat3 (Cert.KernelIdeal.Hand.V7 m) c).arrAt 5 Cert.KernelIdeal.cfg3.N,
    Cert.KernelIdeal.Hand.result_mem m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  have e1 := Cert.ReferenceIdeal.RefValue.ref_run_result m' c
  rw [h0, h1, h2, h3, h4, h5, h6, h7, h8, h9, h10, h11, h12, Cert.ReferenceIdeal.RefValue.aggR_eq_aggK] at e1
  exact e1.trans ((funext fun i => spec_eq m hpre c i).trans (kernel_result m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
